-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S2x800000 : Shape := ⟨2, ![2, 800000]⟩
abbrev S800000 : Shape := ⟨1, ![800000]⟩
abbrev S50000 : Shape := ⟨1, ![50000]⟩
abbrev S7x128 : Shape := ⟨2, ![7, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S800000 : S_.BroadcastsInDim S800000 (![] : Fin 0 → Fin S800000.rank)
  reducesTo_S800000_S_d0 : S800000.ReducesTo [0] S_
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg9 : FVec F S128 .f32) (main_arg10 : FVec F S128x5 .f32) (main_arg11 : FVec F S5 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x5 .f32 := Host.absf main_arg10
  let main_cst_14 : FVec F S_ .f32 := constant S_ .f32 0x7F800000#32
  let main_v40 : FVec F S128x5 .f32 := broadcastInDim S128x5 ![] bcast_S_S128x5 main_cst_14
  let main_v41 : IVec S128x5 1 := cmpf .olt main_v39 main_v40
  let main_c_15 : IVec S_ 1 := constantI S_ 1 1#1
  let main_v42 : IVec S_ 1 := (fun x v => Host.reduce IntOp.andi x v reducesTo_S128x5_S_d0_1 h_S_) main_v41 main_c_15
  let main_v43 : IVec S_ 1 := andi main_v38 main_v42
  let main_v44 : FVec F S5 .f32 := Host.absf main_arg11
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x5 .f32) (main_arg11 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x7 .f32) (main_arg1 : IVec S2x800000 32) (main_arg2 : FVec F S800000 .f32) (main_arg3 : IVec S50000 32) (main_arg4 : FVec F S7x128 .f32) (main_arg5 : FVec F S128 .f32) (main_arg6 : FVec F S128x128 .f32) (main_arg7 : FVec F S128 .f32) (main_arg8 : FVec F S128x128 .f32) (main_arg9 : FVec F S128 .f32) (main_arg10 : FVec F S128x5 .f32) (main_arg11 : FVec F S5 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S7x128 .f32 := Host.absf main_arg4
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x7 : Shape := ⟨2, ![50000, 7]⟩
abbrev S2x800000 : Shape := ⟨2, ![2, 800000]⟩
abbrev S800000 : Shape := ⟨1, ![800000]⟩
abbrev S50000 : Shape := ⟨1, ![50000]⟩
abbrev S7x128 : Shape := ⟨2, ![7, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x800000 : Shape := ⟨2, ![1, 800000]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S2000x7 : Shape := ⟨2, ![2000, 7]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S1x5 : Shape := ⟨2, ![1, 5]⟩
abbrev S64x5 : Shape := ⟨2, ![64, 5]⟩
abbrev S64x128 : Shape := ⟨2, ![64, 128]⟩
abbrev S64x1 : Shape := ⟨2, ![64, 1]⟩
abbrev S1x64 : Shape := ⟨2, ![1, 64]⟩
abbrev S2000x64 : Shape := ⟨2, ![2000, 64]⟩

abbrev nBuf : Space → Nat
  | .hbm => 113
  | .vmem => 51
  | .smem => 0
  | _ => 0

abbrev bufTy : (tb : Table) → Fin (tcTables nBuf tb) → BufTy
  | .hbm, ⟨0, _⟩ => ⟨S50000x7, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S7x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x5, .f32⟩
  | .hbm, ⟨11, _⟩ => ⟨S5, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S800000, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x1, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x1, .f32⟩
  | .hbm, ⟨83, _⟩ => ⟨S800000x128, .f32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S800000x1, .f32⟩
  | .hbm, ⟨102, _⟩ => ⟨S800000x128, .f32⟩
  | .hbm, ⟨103, _⟩ => ⟨S800000x128, .f32⟩
  | .hbm, ⟨104, _⟩ => ⟨S_, .f32⟩
  | .hbm, ⟨105, _⟩ => ⟨S50000x128, .f32⟩
  | .hbm, ⟨106, _⟩ => ⟨S800000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x1, .i32⟩
  | .hbm, ⟨111, _⟩ => ⟨S1x5, .f32⟩
  | .hbm, ⟨112, _⟩ => ⟨S64x5, .f32⟩
  | .local _ .vmem, ⟨0, _⟩ => ⟨S2000x7, .f32⟩
  | .local _ .vmem, ⟨1, _⟩ => ⟨S2000x7, .f32⟩
  | .local _ .vmem, ⟨2, _⟩ => ⟨S7x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .i32⟩
  | .local _ .vmem, ⟨45, _⟩ => ⟨S2000x1, .i32⟩
  | .local _ .vmem, ⟨46, _⟩ => ⟨S128x5, .f32⟩
  | .local _ .vmem, ⟨47, _⟩ => ⟨S1x5, .f32⟩
  | .local _ .vmem, ⟨48, _⟩ => ⟨S64x5, .f32⟩
  | .local _ .vmem, ⟨49, _⟩ => ⟨S64x128, .f32⟩
  | .local _ .vmem, ⟨50, _⟩ => ⟨S64x1, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_scratch0 : Ref sig .tc := ⟨.vmem, 49, rfl⟩
abbrev cc6_scratch1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_14 : BitVec 32 := 0#32
  let v28 : BitVec 1 := Scalar.cmpi .ne v27 c0_i32_14
  v28

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x5 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x5 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x5 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S800000 : S_.BroadcastsInDim S800000 (![] : Fin 0 → Fin S800000.rank)
  inb_S2000x7_S2000x7_0_0 : ∀ a, (![0, 0] : Fin 2 → Nat) a + S2000x7.size a ≤ S2000x7.size a
  h_S2000x7 : 0 < S2000x7.numel
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S5_S1x5 : S5.ShapeCasts S1x5
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  broadcasts_S64x1_S64x128 : S64x1.Broadcasts S64x128
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S64x5 : S1x5.Broadcasts S64x5
  inb_S64x5_S64x5_0_0 : ∀ a, (![0, 0] : Fin 2 → Nat) a + S64x5.size a ≤ S64x5.size a
  h_S64x5 : 0 < S64x5.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x7_S7x128_S2000x128_1_0_0_1_n_n_wf : DotDims.WF S2000x7 S7x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  dot_S2000x64_S2000x1_S64x1_0_0_1_1_n_n_wf : DotDims.WF S2000x64 S2000x1 S64x1 [0] [0] [1] [1] [] []
  dot_S64x128_S128x5_S64x5_1_0_0_1_n_n_wf : DotDims.WF S64x128 S128x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S50000x7.size a
  hwx0_0 : ∀ i : grid0.Coords, EltTy.bits .f32 = 32 ∨ (Rect.block (s := S50000x7) S2000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .i32 = 32 ∨ (Rect.block (s := S50000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x5.size a ≤ S128x5.size a
  hwx6_2 : ∀ i : grid6.Coords, EltTy.bits .f32 = 32 ∨ (Rect.block (s := S128x5) S128x5.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x5.size a ≤ S1x5.size a
  hwx6_3 : ∀ i : grid6.Coords, EltTy.bits .f32 = 32 ∨ (Rect.block (s := S1x5) S1x5.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x5.size a ≤ S64x5.size a
  hwx6_4 : ∀ i : grid6.Coords, EltTy.bits .f32 = 32 ∨ (Rect.block (s := S64x5) S64x5.size (cc6_transform_4 i) (hinb6_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x128_S128x5_S64x5_1_0_0_1_n_n : DotDims S64x128 S128x5 S64x5 where
  lhsContracting := [1]
  rhsContracting := [0]
  lhsNonContracting := [0]
  rhsNonContracting := [1]
  lhsBatch := []
  rhsBatch := []
  wf := dot_S64x128_S128x5_S64x5_1_0_0_1_n_n_wf

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S128x5.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x5.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S64x5.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000x7 : Shape := ⟨2, ![50000, 7]⟩
abbrev S2x800000 : Shape := ⟨2, ![2, 800000]⟩
abbrev S800000 : Shape := ⟨1, ![800000]⟩
abbrev S50000 : Shape := ⟨1, ![50000]⟩
abbrev S7x128 : Shape := ⟨2, ![7, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x800000 : Shape := ⟨2, ![1, 800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 222
  | .vmem => 0
  | .smem => 0
  | _ => 0

abbrev hbmTy0_0 (i : Nat) : BufTy := match i % 128 with
  | 0 => ⟨S50000x7, .f32⟩
  | 1 => ⟨S2x800000, .i32⟩
  | 2 => ⟨S800000, .f32⟩
  | 3 => ⟨S50000, .i32⟩
  | 4 => ⟨S7x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x5, .f32⟩
  | 11 => ⟨S5, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x1, .f32⟩
  | 125 => ⟨S800000x128, .f32⟩
  | 126 => ⟨S800000x128, .f32⟩
  | 127 => ⟨S_, .f32⟩
  | _ => ⟨S50000x7, .f32⟩

abbrev hbmTy0_1 (i : Nat) : BufTy := match i % 128 with
  | 0 => ⟨S50000x128, .f32⟩
  | 1 => ⟨S800000x1, .i32⟩
  | 2 => ⟨S50000x128, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S64x128, .f32⟩
  | 76 => ⟨S50000x1, .i32⟩
  | 77 => ⟨S64x128, .f32⟩
  | 78 => ⟨S_, .f32⟩
  | 79 => ⟨S50000, .f32⟩
  | 80 => ⟨S_, .f32⟩
  | 81 => ⟨S64, .f32⟩
  | 82 => ⟨S50000x1, .i32⟩
  | 83 => ⟨S64, .f32⟩
  | 84 => ⟨S_, .f32⟩
  | 85 => ⟨S64, .f32⟩
  | 86 => ⟨S64, .f32⟩
  | 87 => ⟨S64x1, .f32⟩
  | 88 => ⟨S64x128, .f32⟩
  | 89 => ⟨S64x128, .f32⟩
  | 90 => ⟨S64x5, .f32⟩
  | 91 => ⟨S1x5, .f32⟩
  | 92 => ⟨S64x5, .f32⟩
  | 93 => ⟨S64x5, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call3_cst : Ref sig .tc := ⟨.hbm, 139, rfl⟩
abbrev main_call3_v0 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_28 : Ref sig .tc := ⟨.hbm, 178, rfl⟩
abbrev main_v126 : Ref sig .tc := ⟨.hbm, 179, rfl⟩
abbrev main_v127 : Ref sig .tc := ⟨.hbm, 180, rfl⟩
abbrev main_c_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_31 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_32 : Ref sig .tc := ⟨.hbm, 206, rfl⟩
abbrev main_v150 : Ref sig .tc := ⟨.hbm, 207, rfl⟩
abbrev main_cst_33 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_34 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  dot_S50000x7_S7x128_S50000x128_1_0_0_1_n_n_wf : DotDims.WF S50000x7 S7x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x5_S64x5_1_0_0_1_n_n_wf : DotDims.WF S64x128 S128x5 S64x5 [1] [0] [0] [1] [] []

variable [Facts₀]

def dot_S50000x7_S7x128_S50000x128_1_0_0_1_n_n : DotDims S50000x7 S7x128 S50000x128 where
  lhsContracting := [1]
  rhsContracting := [0]
  lhsNonContracting := [0]
  rhsNonContracting := [1]
  lhsBatch := []
  rhsBatch := []
  wf := dot_S50000x7_S7x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x5_S64x5_1_0_0_1_n_n : DotDims S64x128 S128x5 S64x5 where
  lhsContracting := [1]
  rhsContracting := [0]
  lhsNonContracting := [0]
  rhsNonContracting := [1]
  lhsBatch := []
  rhsBatch := []
  wf := dot_S64x128_S128x5_S64x5_1_0_0_1_n_n_wf

class Facts : Prop extends Facts₀ where

variable [Facts]
-- ==== Proof.KB.Reg0.lean ====
import proofs.«428546_j9294309228814_1_alg».proof.Proof.Gen.Kernel.Launch
import proofs.«428546_j9294309228814_1_alg».proof.Proof.Gen.Kernel.Skeleton
import proofs.«428546_j9294309228814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x7 := Rect.unit (s := S2000x7) ![0, 0] S2000x7.size inb_S2000x7_S2000x7_0_0
abbrev r0_w : Rect S7x128 := Rect.unit (s := S7x128) ![0, 0] S7x128.size inb_S7x128_S7x128_0_0
abbrev r0_o : Rect S2000x128 := Rect.unit (s := S2000x128) ![0, 0] (Shape.size S2000x128) inb_S2000x128_S2000x128_0_0

def out0_2 (x0 : Vec F S2000x7 .f32) (x1 : Vec F S7x128 .f32) : Vec F S2000x128 .f32 :=
  View.canon [⟨r0_o, k0_pay1 (View.ld x0 r0_x) (View.ld x1 r0_w)⟩]

-- The body reads both inputs whole and stores the product over the whole output tile.
theorem sound_kernel0 (c : Dev nD) (E : Set ℕ) (i : grid0.Coords) (arg1 : Memref sig .tc .vmem S2000x7 .f32) (harg1 : arg1.IsWhole)
    (arg2 : Memref sig .tc .vmem S7x128 .f32) (harg2 : arg2.IsWhole) (arg3 : Memref sig .tc .vmem S2000x128 .f32) (harg3 : arg3.IsWhole)
    (x0 : Vec F S2000x7 .f32) (x1 : Vec F S7x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ fun y => View.cover_of_tiled [⟨r0_o, _⟩] S2000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.Kernel.Hand

end
-- ==== Proof.KB.Reg1.lean ====
import proofs.«428546_j9294309228814_1_alg».proof.Proof.Gen.Kernel.Launch
import proofs.«428546_j9294309228814_1_alg».proof.Proof.Gen.Kernel.Skeleton
import proofs.«428546_j9294309228814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_t : Rect S2000x128 := Rect.unit (s := S2000x128) ![0, 0] S2000x128.size inb_S2000x128_S2000x128_0_0
abbrev r1_c : Rect S2000x1 := Rect.unit (s := S2000x1) ![0, 0] S2000x1.size inb_S2000x1_S2000x1_0_0
abbrev r1_b : Rect S1x128 := Rect.unit (s := S1x128) ![0, 0] S1x128.size inb_S1x128_S1x128_0_0

-- The body's first load is of window 1, its second of window 0.
def out1_4 (x0 : Vec F S2000x128 .f32) (x1 : Vec F S2000x128 .f32) (x2 : Vec F S2000x1 .f32) (x3 : Vec F S1x128 .f32) : Vec F S2000x128 .f32 :=
  View.canon [⟨r1_t, k1_pay1 (View.ld x1 r1_t) (View.ld x0 r1_t) (View.ld x2 r1_c) (View.ld x3 r1_b)⟩]

-- The body reads its four inputs whole and stores the combined tile over the whole output tile.
theorem sound_kernel1 (c : Dev nD) (E : Set ℕ) (i : grid1.Coords) (arg1 : Memref sig .tc .vmem S2000x128 .f32) (harg1 : arg1.IsWhole)
    (arg2 : Memref sig .tc .vmem S2000x128 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ fun y => View.cover_of_tiled [⟨r1_t, _⟩] S2000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl, after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

end Cert.Kernel.Hand

end
-- ==== Proof.KB.Reg2.lean ====
import proofs.«428546_j9294309228814_1_alg».proof.Proof.Gen.Kernel.Launch
import proofs.«428546_j9294309228814_1_alg».proof.Proof.Gen.Kernel.Skeleton
import proofs.«428546_j9294309228814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_o : Rect S2000x128 := Rect.unit (s := S2000x128) ![0, 0] (Shape.size S2000x128) inb_S2000x128_S2000x128_0_0

def out2_2 (x0 : Vec F S2000x128 .f32) (x1 : Vec F S128x128 .f32) : Vec F S2000x128 .f32 :=
  View.canon [⟨r2_o, k2_pay1 (View.ld x0 r2_x) (View.ld x1 r2_w)⟩]

-- The body reads both inputs whole and stores the product over the whole output tile.
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ fun y => View.cover_of_tiled [⟨r2_o, _⟩] S2000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  unfold bodyAt2
  simp only [before2_0, before2_1]
  rw [show (dat2 V c).Φ t.succ = (dat2 V c).Φ t.castSucc from rfl,
    show (dat2 V c).owesAt () t.succ = (dat2 V c).owesAt () t.castSucc from rfl, after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

end Cert.Kernel.Hand

end
-- ==== Proof.KB.Reg3.lean ====
import proofs.«428546_j9294309228814_1_alg».proof.Proof.KB.Reg1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Region 3 runs the body of region 1.
theorem cc3_eq : @cc3__combine_kernel F _ = @cc1__combine_kernel F _ := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  unfold bodyAt3
  rw [cc3_eq]
  simp only [before3_0, before3_1, before3_2, before3_3]
  rw [show (dat3 V c).Φ t.succ = (dat3 V c).Φ t.castSucc from rfl,
    show (dat3 V c).owesAt () t.succ = (dat3 V c).owesAt () t.castSucc from rfl, after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

end Cert.Kernel.Hand

end
-- ==== Proof.KB.Reg4.lean ====
import proofs.«428546_j9294309228814_1_alg».proof.Proof.KB.Reg2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- Region 4 runs the body of region 2.
theorem cc4_eq : @cc4__linear_kernel F _ = @cc2__linear_kernel F _ := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4
  rw [cc4_eq]
  simp only [before4_0, before4_1]
  rw [show (dat4 V c).Φ t.succ = (dat4 V c).Φ t.castSucc from rfl,
    show (dat4 V c).owesAt () t.succ = (dat4 V c).owesAt () t.castSucc from rfl, after4_0, after4_1, after4_2]
  iintro ⟨HΦ, Ho, ⟨%d0, H0⟩, ⟨%d1, H1⟩, ⟨%d2, H2⟩⟩
  iapply (sound_kernel2 c Set.univ _ _ _ _ _ _ _ (iblk4 V c 0 t) (iblk4 V c 1 t) _)
  iframe H0 H1
  isplitl [H2]; · iexists _; iexact H2
  iintro ⟨H0, H1, H2⟩
  iframe

end Cert.Kernel.Hand

end
-- ==== Proof.KB.Reg5.lean ====
import proofs.«428546_j9294309228814_1_alg».proof.Proof.Gen.Kernel.Launch
import proofs.«428546_j9294309228814_1_alg».proof.Proof.Gen.Kernel.Skeleton
import proofs.«428546_j9294309228814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_t : Rect S2000x128 := Rect.unit (s := S2000x128) ![0, 0] S2000x128.size inb_S2000x128_S2000x128_0_0
abbrev r5_c : Rect S2000x1 := Rect.unit (s := S2000x1) ![0, 0] S2000x1.size inb_S2000x1_S2000x1_0_0
abbrev r5_b : Rect S1x128 := Rect.unit (s := S1x128) ![0, 0] S1x128.size inb_S1x128_S1x128_0_0

-- The body's first load is of window 1, its second of window 0.
def out5_4 (x0 : Vec F S2000x128 .f32) (x1 : Vec F S2000x128 .f32) (x2 : Vec F S2000x1 .f32) (x3 : Vec F S1x128 .f32) : Vec F S2000x128 .f32 :=
  View.canon [⟨r5_t, k5_pay1 (View.ld x1 r5_t) (View.ld x0 r5_t) (View.ld x2 r5_c) (View.ld x3 r5_b)⟩]

-- The body reads its four inputs whole and stores the combined tile over the whole output tile.
theorem sound_kernel5 (c : Dev nD) (E : Set ℕ) (i : grid5.Coords) (arg1 : Memref sig .tc .vmem S2000x128 .f32) (harg1 : arg1.IsWhole)
    (arg2 : Memref sig .tc .vmem S2000x128 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ fun y => View.cover_of_tiled [⟨r5_t, _⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  unfold bodyAt5
  simp only [before5_0, before5_1, before5_2, before5_3]
  rw [show (dat5 V c).Φ t.succ = (dat5 V c).Φ t.castSucc from rfl,
    show (dat5 V c).owesAt () t.succ = (dat5 V c).owesAt () t.castSucc from rfl, after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe

end Cert.Kernel.Hand

end
-- ==== Proof.KB.Reg6Runs.lean ====
import proofs.«428546_j9294309228814_1_alg».proof.Proof.Gen.Kernel.Launch
import proofs.«428546_j9294309228814_1_alg».proof.Proof.Gen.Kernel.Skeleton
import proofs.«428546_j9294309228814_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin grid6.N, cond6_0 (grid6.coords t) ↔ t.val = 0 := by decide +kernel

abbrev cond6_1 (i : grid6.Coords) : Prop := k6_cond2 i = 1#1
theorem hcond6_1 : ∀ t : Fin grid6.N, cond6_1 (grid6.coords t) ↔ t.val = 24 := by decide +kernel

theorem idleAt6_4 : ∀ t : Fin grid6.N, ¬cond6_1 (grid6.coords t) → cfg6.idle 4 (grid6.coords t) = true := by decide +kernel
theorem noFlush6_4 : ∀ t : Fin grid6.N, ¬cond6_1 (grid6.coords t) → (cfg6.win 4).flush t = false := by decide +kernel
theorem liveAt6_4 : ∀ t : Fin grid6.N, cond6_1 (grid6.coords t) → cfg6.idle 4 (grid6.coords t) = false := by decide +kernel

abbrev scM6_0 : Memref sig .tc .vmem S64x128 .f32 := Memref.whole cc6_scratch0
abbrev scM6_1 : Memref sig .tc .vmem S64x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.Kernel.Hand

end
-- ==== Proof.KB.Reg6Whole.lean ====
import proofs.«428546_j9294309228814_1_alg».proof.Proof.KB.Reg6Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz6 : (![0, 0] : Fin 2 → ℕ) = fun _ => 0 := by funext a; fin_cases a <;> rfl

variable {S : Shape} {e : EltTy} {sig' : RefSig} {κ : Kind} {sp : Space} (v : View sig' κ sp S e)
  {off : Fin S.rank → ℕ} (hz : off = fun _ => 0) (inb : ∀ a, off a + S.size a ≤ S.size a)
include hz

theorem readAt6 (f : v.ty.Contents (Elt F)) : v.readAt (Elt F) (Rect.unit off S.size inb).toLoadRect f = v.read (Elt F) f :=
  View.ld_unit_zero hz inb (v.read (Elt F) f)

theorem stored6 (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans (View.canon_cons_unit_zero hz inb w L)

theorem readCov6 (w : S.Idx → Elt F e) :
    v.readCov [(⟨Rect.unit off S.size inb, w⟩ : View.Piece (Elt F) S e)] (Rect.unit off S.size inb).toLoadRect = w :=
  View.readCov_unit_zero v hz inb w

end Cert.Kernel.Hand

end
-- ==== Proof.KB.Reg6Run.lean ====
import proofs.«428546_j9294309228814_1_alg».proof.Proof.KB.Reg6Whole

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (arg1 : Memref sig .tc .vmem S2000x128 .f32) (arg2 : Memref sig .tc .vmem S2000x1 .i32)
  (arg3 : Memref sig .tc .vmem S128x5 .f32) (arg4 : Memref sig .tc .vmem S1x5 .f32)
  (x0 : Vec F S2000x128 .f32) (x1 : Vec F S2000x1 .i32) (x2 : Vec F S128x5 .f32) (x3 : Vec F S1x5 .f32)

/-- The four input buffers at their blocks: every case of the body needs them and hands them back as found. -/
abbrev ins6 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)

variable {c arg1 arg2 arg3 arg4} {E : Set ℕ} {i : grid6.Coords} {harg1 : arg1.IsWhole} {harg2 : arg2.IsWhole} {harg3 : arg3.IsWhole} {harg4 : arg4.IsWhole}
  {arg5 : Memref sig .tc .vmem S64x5 .f32} {harg5 : arg5.IsWhole} {arg6 : Memref sig .tc .vmem S64x128 .f32} {harg6 : arg6.IsWhole}
  {arg7 : Memref sig .tc .vmem S64x1 .f32} {harg7 : arg7.IsWhole}
  (x4 : Vec F S64x5 .f32) (xs0 : Vec F S64x128 .f32) (xs1 : Vec F S64x1 .f32)

/-- First point: the accumulators, held at anything, are reset and the tile's contribution added; the result buffer is handed back as found. -/
theorem run6_A {K : PUnit → sProp 𝕄} (hc0 : cond6_0 i) (hc1 : ¬cond6_1 i) :
    iprop(ins6 c arg1 arg2 arg3 arg4 x0 x1 x2 x3 ∗ owns (c : Thread nD τ) arg5 fullShare x4 ∗ (∃ d, owns (c : Thread nD τ) arg6 fullShare d) ∗ (∃ d, owns (c : Thread nD τ) arg7 fullShare d)
        ∗ (iprop(ins6 c arg1 arg2 arg3 arg4 x0 x1 x2 x3 ∗ owns (c : Thread nD τ) arg5 fullShare x4 ∗ owns (c : Thread nD τ) arg6 fullShare (k6_pay4 x0 x1 (k6_pay1 (F := F))) ∗ owns (c : Thread nD τ) arg7 fullShare (k6_pay5 x1 (k6_pay2 (F := F)))) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%f4, %hf4, H4⟩, ⟨%d5, %f5, -, H5⟩, ⟨%d6, %f6, -, H6⟩, Hk⟩
  subst hf0 hf1 hf2 hf3 hf4
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists f4; isplitr; · ipureintro; rfl
    iexact H4
  isplitl [H5]
  · iexists _; isplitr
    swap; · iexact H5
    ipureintro
    sl_unfold_words
    refine (stored6 _ hz6 _ _ _ _).trans ?_
    rw [readAt6 arg1.view hz6 _ f0, readAt6 arg2.view hz6 _ f1, readCov6 arg6.view hz6 _ _]
  iexists _; isplitr
  swap; · iexact H6
  ipureintro
  sl_unfold_words
  refine (stored6 _ hz6 _ _ _ _).trans ?_
  rw [readAt6 arg2.view hz6 _ f1, readCov6 arg7.view hz6 _ _]

/-- Middle point: the tile's contribution is added to what the accumulators held; the result buffer is handed back as found. -/
theorem run6_B {K : PUnit → sProp 𝕄} (hc0 : ¬cond6_0 i) (hc1 : ¬cond6_1 i) :
    iprop(ins6 c arg1 arg2 arg3 arg4 x0 x1 x2 x3 ∗ owns (c : Thread nD τ) arg5 fullShare x4 ∗ owns (c : Thread nD τ) arg6 fullShare xs0 ∗ owns (c : Thread nD τ) arg7 fullShare xs1
        ∗ (iprop(ins6 c arg1 arg2 arg3 arg4 x0 x1 x2 x3 ∗ owns (c : Thread nD τ) arg5 fullShare x4 ∗ owns (c : Thread nD τ) arg6 fullShare (k6_pay4 x0 x1 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%f4, %hf4, H4⟩, ⟨%f5, %hf5, H5⟩, ⟨%f6, %hf6, H6⟩, Hk⟩
  subst hf0 hf1 hf2 hf3 hf4 hf5 hf6
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists f4; isplitr; · ipureintro; rfl
    iexact H4
  isplitl [H5]
  · iexists _; isplitr
    swap; · iexact H5
    ipureintro
    sl_unfold_words
    refine (stored6 _ hz6 _ _ _ _).trans ?_
    rw [readAt6 arg1.view hz6 _ f0, readAt6 arg2.view hz6 _ f1, readAt6 arg6.view hz6 _ f5]
  iexists _; isplitr
  swap; · iexact H6
  ipureintro
  sl_unfold_words
  refine (stored6 _ hz6 _ _ _ _).trans ?_
  rw [readAt6 arg2.view hz6 _ f1, readAt6 arg7.view hz6 _ f6]

/-- Last point: as at a middle point, and the result buffer, held at anything, is left at the classifier applied to the updated accumulators. -/
theorem run6_C {K : PUnit → sProp 𝕄} (hc0 : ¬cond6_0 i) (hc1 : cond6_1 i) :
    iprop(ins6 c arg1 arg2 arg3 arg4 x0 x1 x2 x3 ∗ (∃ d, owns (c : Thread nD τ) arg5 fullShare d) ∗ owns (c : Thread nD τ) arg6 fullShare xs0 ∗ owns (c : Thread nD τ) arg7 fullShare xs1
        ∗ (iprop(ins6 c arg1 arg2 arg3 arg4 x0 x1 x2 x3 ∗ owns (c : Thread nD τ) arg5 fullShare (k6_pay6 (k6_pay4 x0 x1 xs0) (k6_pay5 x1 xs1) x2 x3) ∗ owns (c : Thread nD τ) arg6 fullShare (k6_pay4 x0 x1 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%d4, %f4, -, H4⟩, ⟨%f5, %hf5, H5⟩, ⟨%f6, %hf6, H6⟩, Hk⟩
  subst hf0 hf1 hf2 hf3 hf5 hf6
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists _; isplitr
    swap; · iexact H4
    ipureintro
    sl_unfold_words
    refine (stored6 _ hz6 _ _ _ _).trans ?_
    rw [readCov6 arg6.view hz6 _ _, readCov6 arg7.view hz6 _ _, readAt6 arg1.view hz6 _ f0, readAt6 arg2.view hz6 _ f1, readAt6 arg6.view hz6 _ f5, readAt6 arg7.view hz6 _ f6, readAt6 arg3.view hz6 _ f2, readAt6 arg4.view hz6 _ f3]
  isplitl [H5]
  · iexists _; isplitr
    swap; · iexact H5
    ipureintro
    sl_unfold_words
    refine (stored6 _ hz6 _ _ _ _).trans ?_
    rw [readAt6 arg1.view hz6 _ f0, readAt6 arg2.view hz6 _ f1, readAt6 arg6.view hz6 _ f5]
  iexists _; isplitr
  swap; · iexact H6
  ipureintro
  sl_unfold_words
  refine (stored6 _ hz6 _ _ _ _).trans ?_
  rw [readAt6 arg2.view hz6 _ f1, readAt6 arg7.view hz6 _ f6]

end Cert.Kernel.Hand

end
-- ==== Proof.KB.Reg6.lean ====
import proofs.«428546_j9294309228814_1_alg».proof.Proof.KB.Reg6Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def outsAt6 (c : Dev nD) : (n : ℕ) → n < cfg6.N → Vec F S64x5 .f32 × Vec F S64x128 .f32 × Vec F S64x1 .f32
  | 0, h =>
    (k6_pay6 (k6_pay4 (iblk6 V c 0 ⟨0, h⟩) (iblk6 V c 1 ⟨0, h⟩) (k6_pay1 (F := F))) (k6_pay5 (iblk6 V c 1 ⟨0, h⟩) (k6_pay2 (F := F)))
        (iblk6 V c 2 ⟨0, h⟩) (iblk6 V c 3 ⟨0, h⟩),
      k6_pay4 (iblk6 V c 0 ⟨0, h⟩) (iblk6 V c 1 ⟨0, h⟩) (k6_pay1 (F := F)),
      k6_pay5 (iblk6 V c 1 ⟨0, h⟩) (k6_pay2 (F := F)))
  | n + 1, h =>
    (k6_pay6 (k6_pay4 (iblk6 V c 0 ⟨n + 1, h⟩) (iblk6 V c 1 ⟨n + 1, h⟩) (outsAt6 c n (Nat.lt_of_succ_lt h)).2.1)
        (k6_pay5 (iblk6 V c 1 ⟨n + 1, h⟩) (outsAt6 c n (Nat.lt_of_succ_lt h)).2.2)
        (iblk6 V c 2 ⟨n + 1, h⟩) (iblk6 V c 3 ⟨n + 1, h⟩),
      k6_pay4 (iblk6 V c 0 ⟨n + 1, h⟩) (iblk6 V c 1 ⟨n + 1, h⟩) (outsAt6 c n (Nat.lt_of_succ_lt h)).2.1,
      k6_pay5 (iblk6 V c 1 ⟨n + 1, h⟩) (outsAt6 c n (Nat.lt_of_succ_lt h)).2.2)

theorem outsAt6_sums_zero (c : Dev nD) (h : 0 < cfg6.N) :
    (outsAt6 V c 0 h).2.1 = k6_pay4 (iblk6 V c 0 ⟨0, h⟩) (iblk6 V c 1 ⟨0, h⟩) (k6_pay1 (F := F)) := rfl
theorem outsAt6_sums_succ (c : Dev nD) (n : ℕ) (h : n + 1 < cfg6.N) :
    (outsAt6 V c (n + 1) h).2.1 = k6_pay4 (iblk6 V c 0 ⟨n + 1, h⟩) (iblk6 V c 1 ⟨n + 1, h⟩) (outsAt6 V c n (Nat.lt_of_succ_lt h)).2.1 := rfl
theorem outsAt6_cnt_zero (c : Dev nD) (h : 0 < cfg6.N) :
    (outsAt6 V c 0 h).2.2 = k6_pay5 (iblk6 V c 1 ⟨0, h⟩) (k6_pay2 (F := F)) := rfl
theorem outsAt6_cnt_succ (c : Dev nD) (n : ℕ) (h : n + 1 < cfg6.N) :
    (outsAt6 V c (n + 1) h).2.2 = k6_pay5 (iblk6 V c 1 ⟨n + 1, h⟩) (outsAt6 V c n (Nat.lt_of_succ_lt h)).2.2 := rfl
theorem outsAt6_out (c : Dev nD) (n : ℕ) (h : n < cfg6.N) :
    (outsAt6 V c n h).1 = k6_pay6 (outsAt6 V c n h).2.1 (outsAt6 V c n h).2.2 (iblk6 V c 2 ⟨n, h⟩) (iblk6 V c 3 ⟨n, h⟩) := by
  cases n <;> rfl

/-- The two accumulators, the group sums and the group counts, at given contents. -/
def acc6 (c : Dev nD) (s : Vec F S64x128 .f32) (k : Vec F S64x1 .f32) : sProp 𝕄 :=
  iprop(iprop(iprop(owns (c : Thread nD τ) scM6_0 fullShare s ∗ owns (c : Thread nD τ) scM6_1 fullShare k)
    ∗ Pipeline.scopedRestBut (Ix := Unit) (Name := ℕ) (U := UR sig nD τ) (Lvl := ℕ) (Val := Elt F) spec6 c [cc6_scratch0, cc6_scratch1]) ∗ (∃ r, prngReg c r))

/-- The invariant before point n: the accumulators hold what the point before left. -/
def PhiS6 (c : Dev nD) : (n : ℕ) → n ≤ cfg6.N → sProp 𝕄
  | 0, _ => Pipeline.ΦA spec6 c
  | n + 1, hn => acc6 c (outsAt6 V c n hn).2.1 (outsAt6 V c n hn).2.2

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem after6_4 (c : Dev nD) (t : Fin cfg6.N) : (dat6 V c).after 4 t = (outsAt6 V c t.val t.isLt).1 := rfl

theorem outsAt6_first (c : Dev nD) (t : Fin cfg6.N) (h0 : t.val = 0) :
    (outsAt6 V c t.val t.isLt).2.1 = k6_pay4 (iblk6 V c 0 t) (iblk6 V c 1 t) (k6_pay1 (F := F))
      ∧ (outsAt6 V c t.val t.isLt).2.2 = k6_pay5 (iblk6 V c 1 t) (k6_pay2 (F := F)) := by
  obtain ⟨_ | n, hn⟩ := t
  · exact ⟨rfl, rfl⟩
  · exact absurd h0 (Nat.succ_ne_zero n)
theorem outsAt6_later (c : Dev nD) (t : Fin cfg6.N) (h0 : t.val ≠ 0) :
    (outsAt6 V c t.val t.isLt).2.1 = k6_pay4 (iblk6 V c 0 t) (iblk6 V c 1 t) (outsAt6 V c (t.val - 1) (Nat.lt_of_le_of_lt (Nat.sub_le _ _) t.isLt)).2.1
      ∧ (outsAt6 V c t.val t.isLt).2.2 = k6_pay5 (iblk6 V c 1 t) (outsAt6 V c (t.val - 1) (Nat.lt_of_le_of_lt (Nat.sub_le _ _) t.isLt)).2.2 := by
  obtain ⟨_ | n, hn⟩ := t
  · exact absurd rfl h0
  · exact ⟨rfl, rfl⟩
theorem outsAt6_out_at (c : Dev nD) (t : Fin cfg6.N) :
    (outsAt6 V c t.val t.isLt).1 = k6_pay6 (outsAt6 V c t.val t.isLt).2.1 (outsAt6 V c t.val t.isLt).2.2 (iblk6 V c 2 t) (iblk6 V c 3 t) :=
  outsAt6_out V c t.val t.isLt

theorem PhiS6_zero (c : Dev nD) (n : ℕ) (h : n ≤ cfg6.N) (hz : n = 0) : PhiS6 V c n h = Pipeline.ΦA spec6 c := by
  subst hz; rfl
theorem PhiS6_pos (c : Dev nD) (n : ℕ) (h : n ≤ cfg6.N) (hz : n ≠ 0) :
    PhiS6 V c n h = acc6 c (outsAt6 V c (n - 1) (by omega)).2.1 (outsAt6 V c (n - 1) (by omega)).2.2 := by
  cases n with
  | zero => exact absurd rfl hz
  | succ n => rfl
theorem PhiS6_castSucc (c : Dev nD) (t : Fin cfg6.N) :
    (dat6 V c).Φ t.castSucc = PhiS6 V c t.val (Nat.le_of_lt t.isLt) := by
  dsimp only [dat6]; simp only [Fin.coe_castSucc]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

set_option maxHeartbeats 4800000 in
/-- The body at any point, by its three cases: the first point, a middle point, the last point. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d)))
      ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t ∗ (dat6 V c).leavesExact 4 t)) := by
  unfold bodyAt6
  simp only [before6_0, before6_1, before6_2, before6_3]
  rw [show (dat6 V c).owesAt () t.succ = (dat6 V c).owesAt () t.castSucc from rfl,
    show (dat6 V c).Φ t.succ = acc6 c (outsAt6 V c t.val t.isLt).2.1 (outsAt6 V c t.val t.isLt).2.2 from rfl,
    show (dat6 V c).leavesExact 0 t = owns (c : Thread nD τ) (st6_0 t) fullShare (iblk6 V c 0 t) from rfl,
    show (dat6 V c).leavesExact 1 t = owns (c : Thread nD τ) (st6_1 t) fullShare (iblk6 V c 1 t) from rfl,
    show (dat6 V c).leavesExact 2 t = owns (c : Thread nD τ) (st6_2 t) fullShare (iblk6 V c 2 t) from rfl,
    show (dat6 V c).leavesExact 3 t = owns (c : Thread nD τ) (st6_3 t) fullShare (iblk6 V c 3 t) from rfl,
    PhiS6_castSucc V c t]
  by_cases h0 : t.val = 0
  · have hc1 : ¬cond6_1 (grid6.coords t) := fun h => by have := (hcond6_1 t).mp h; omega
    rw [Dat.leavesExact_idle (dat6 V c) 4 t (idleAt6_4 t hc1) (noFlush6_4 t hc1), PhiS6_zero V c _ _ h0, PhiA6_eq,
      (outsAt6_first V c t h0).1, (outsAt6_first V c t h0).2]
    unfold acc6
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run6_A (iblk6 V c 0 t) (iblk6 V c 1 t) (iblk6 V c 2 t) (iblk6 V c 3 t) ((dat6 V c).before 4 t d4) ((hcond6_0 t).mpr h0) hc1)
    unfold ins6
    iframe H0 H1 H2 H3 H4 HS0 HS1
    iintro ⟨⟨H0, H1, H2, H3⟩, H4, HS0, HS1⟩
    iframe
    iexists _; iexact H4
  · have hc0 : ¬cond6_0 (grid6.coords t) := fun h => h0 ((hcond6_0 t).mp h)
    rw [PhiS6_pos V c _ _ h0, (outsAt6_later V c t h0).1, (outsAt6_later V c t h0).2]
    unfold acc6
    by_cases h1 : t.val = 24
    · have hc1 : cond6_1 (grid6.coords t) := (hcond6_1 t).mpr h1
      rw [show (dat6 V c).leavesExact 4 t = owns (c : Thread nD τ) (st6_4 t) fullShare ((dat6 V c).after 4 t) from by
        unfold Dat.leavesExact; rw [liveAt6_4 t hc1], after6_4, outsAt6_out_at V c t, (outsAt6_later V c t h0).1, (outsAt6_later V c t h0).2]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run6_C (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2 hc0 hc1)
      unfold ins6
      iframe H0 H1 H2 H3 HS0 HS1
      isplitl [H4]; · iexists _; iexact H4
      iintro ⟨⟨H0, H1, H2, H3⟩, H4, HS0, HS1⟩
      iframe
    · have hc1 : ¬cond6_1 (grid6.coords t) := fun h => h1 ((hcond6_1 t).mp h)
      rw [Dat.leavesExact_idle (dat6 V c) 4 t (idleAt6_4 t hc1) (noFlush6_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run6_B (iblk6 V c 0 t) (iblk6 V c 1 t) (iblk6 V c 2 t) (iblk6 V c 3 t) ((dat6 V c).before 4 t d4) (outsAt6 V c (t.val - 1) (Nat.lt_of_le_of_lt (Nat.sub_le _ _) t.isLt)).2.1 (outsAt6 V c (t.val - 1) (Nat.lt_of_le_of_lt (Nat.sub_le _ _) t.isLt)).2.2 hc0 hc1)
      unfold ins6
      iframe H0 H1 H2 H3 H4 HS0 HS1
      iintro ⟨⟨H0, H1, H2, H3⟩, H4, HS0, HS1⟩
      iframe
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _

/-- After the last point the accumulators' contents are forgotten. -/
theorem hout6 (c : Dev nD) : (dat6 V c).Φ (Fin.last cfg6.N) ⊢ Pipeline.ΦA spec6 c := by
  rw [PhiA6_eq, show (dat6 V c).Φ (Fin.last cfg6.N) = acc6 c (outsAt6 V c 24 (by decide)).2.1 (outsAt6 V c 24 (by decide)).2.2 from rfl]
  unfold acc6
  iintro ⟨⟨⟨HS0, HS1⟩, HR⟩, Hg⟩
  iframe HR Hg
  isplitl [HS0]
  · iexists _; iexact HS0
  iexists _; iexact HS1

end Cert.Kernel.Hand

end
-- ==== Proof.KB.Pdats.lean ====
import proofs.«428546_j9294309228814_1_alg».proof.Proof.Gen.Kernel.Regions
import proofs.«428546_j9294309228814_1_alg».proof.Proof.KB.Reg0
import proofs.«428546_j9294309228814_1_alg».proof.Proof.KB.Reg1
import proofs.«428546_j9294309228814_1_alg».proof.Proof.KB.Reg2
import proofs.«428546_j9294309228814_1_alg».proof.Proof.KB.Reg3
import proofs.«428546_j9294309228814_1_alg».proof.Proof.KB.Reg4
import proofs.«428546_j9294309228814_1_alg».proof.Proof.KB.Reg5
import proofs.«428546_j9294309228814_1_alg».proof.Proof.KB.Reg6

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev E0 (c : Dev nD) (b : Ref sig .tc) : Buf (Elt F) ((c : Thread nD τ).loc b) := V3 m c b
abbrev E1 (c : Dev nD) (b : Ref sig .tc) : Buf (Elt F) ((c : Thread nD τ).loc b) := V5 m outs c b
abbrev E2 (c : Dev nD) (b : Ref sig .tc) : Buf (Elt F) ((c : Thread nD τ).loc b) := V6 m outs c b
abbrev E3 (c : Dev nD) (b : Ref sig .tc) : Buf (Elt F) ((c : Thread nD τ).loc b) := V8 m outs c b
abbrev E4 (c : Dev nD) (b : Ref sig .tc) : Buf (Elt F) ((c : Thread nD τ).loc b) := V9 m outs c b
abbrev E5 (c : Dev nD) (b : Ref sig .tc) : Buf (Elt F) ((c : Thread nD τ).loc b) := V11 m outs c b
abbrev E6 (c : Dev nD) (b : Ref sig .tc) : Buf (Elt F) ((c : Thread nD τ).loc b) := V13 m outs c b

def pdats : (p : Fin 7) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
  | ⟨6, _⟩ => fun c => dat6 (E6 m outs) c

structure Named : Prop where
  h0 : ∀ c, outs 4 main_v31 c = (dat0 (E0 m) c).arrAt 2 cfg0.N
  h1 : ∀ c, outs 6 main_v46 c = (dat1 (E1 m outs) c).arrAt 4 cfg1.N
  h2 : ∀ c, outs 7 main_v47 c = (dat2 (E2 m outs) c).arrAt 2 cfg2.N
  h3 : ∀ c, outs 9 main_v62 c = (dat3 (E3 m outs) c).arrAt 4 cfg3.N
  h4 : ∀ c, outs 10 main_v63 c = (dat4 (E4 m outs) c).arrAt 2 cfg4.N
  h5 : ∀ c, outs 12 main_v78 c = (dat5 (E5 m outs) c).arrAt 4 cfg5.N
  h6 : ∀ c, outs 14 main_v81 c = (dat6 (E6 m outs) c).arrAt 4 cfg6.N

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.KB.LaunchFacts.lean ====
import proofs.«428546_j9294309228814_1_alg».proof.Proof.KB.Pdats

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_of_launch (ρ : Dev nD → PrngReg) (c : Dev nD) :
    (iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => (R c : sProp 𝕄)) : sProp 𝕄) := by
  have hmono : (bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
      ⊢ (bigSep Finset.univ (fun c : Dev nD => (R c : sProp 𝕄)) : sProp 𝕄) :=
    bigSep_mono fun c _ => rest_of_launch (F := F) ρ c
  iintro ⟨H, -⟩
  imodintro
  iapply hmono
  iexact H

theorem hE7 (c : Dev nD) : (R c : sProp 𝕄) ⊢ (iprop(∃ W, owes (c : Thread nD τ) (0 : CellTallies nD τ sig Unit) W) : sProp 𝕄) := by
  iintro ⟨-, HO⟩; iexact HO

end Cert.Kernel.Hand

end
-- ==== Proof.KB.Outs.lean ====
import proofs.«428546_j9294309228814_1_alg».proof.Proof.KB.Pdats

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

def setOut (o : Outs (F := F)) (r₀ : Ref sig .tc) (v : (c : Dev nD) → Buf (Elt F) ((c : Thread nD τ).loc r₀)) : Outs (F := F) :=
  fun J r c => if h : r = r₀ then h ▸ v c else o J r c

theorem setOut_self (o : Outs (F := F)) (r₀ : Ref sig .tc) (v : (c : Dev nD) → Buf (Elt F) ((c : Thread nD τ).loc r₀)) (J : ℕ) (c : Dev nD) :
    setOut o r₀ v J r₀ c = v c := by
  unfold setOut; rw [dif_pos rfl]

theorem setOut_ne (o : Outs (F := F)) (r₀ : Ref sig .tc) (v : (c : Dev nD) → Buf (Elt F) ((c : Thread nD τ).loc r₀)) (J : ℕ) {r : Ref sig .tc}
    (hne : r ≠ r₀) (c : Dev nD) : setOut o r₀ v J r c = o J r c := by
  unfold setOut; rw [dif_neg hne]

def outsNone : Outs (F := F) := fun _ _ _ => fun _ => Classical.arbitrary _

/-- `o` and `o'` hold the same contents at every array outside `l`. -/
def Off (l : List (Ref sig .tc)) (o o' : Outs (F := F)) : Prop := ∀ J {r}, r ∉ l → ∀ c, o J r c = o' J r c

theorem Off.next {l : List (Ref sig .tc)} {o o' : Outs (F := F)} {r₀ : Ref sig .tc} {v : (c : Dev nD) → Buf (Elt F) ((c : Thread nD τ).loc r₀)}
    (a : Off l o (setOut o' r₀ v)) : Off (r₀ :: l) o o' :=
  fun J _ h c => (a J (List.not_mem_of_not_mem_cons h) c).trans (setOut_ne _ _ _ J (List.ne_of_not_mem_cons h) c)

section
variable {o o' : Outs (F := F)} (c : Dev nD)
theorem c5 (h : o 4 main_v31 c = o' 4 main_v31 c) : V5 m o c = V5 m o' c :=
  congrArg (fun x => StableHlo.after hostOps1 (Function.update (V3 m c) main_v31 x)) h
theorem c6 (e : V5 m o c = V5 m o' c) (h : o 6 main_v46 c = o' 6 main_v46 c) : V6 m o c = V6 m o' c :=
  congrArg₂ (fun (V : Valuation τ sig (Elt F)) x => Function.update V main_v46 x) e h
theorem c8 (e : V6 m o c = V6 m o' c) (h : o 7 main_v47 c = o' 7 main_v47 c) : V8 m o c = V8 m o' c :=
  congrArg₂ (fun V x => StableHlo.after hostOps3 (Function.update V main_v47 x)) e h
theorem c9 (e : V8 m o c = V8 m o' c) (h : o 9 main_v62 c = o' 9 main_v62 c) : V9 m o c = V9 m o' c :=
  congrArg₂ (fun (V : Valuation τ sig (Elt F)) x => Function.update V main_v62 x) e h
theorem c11 (e : V9 m o c = V9 m o' c) (h : o 10 main_v63 c = o' 10 main_v63 c) : V11 m o c = V11 m o' c :=
  congrArg₂ (fun V x => StableHlo.after hostOps5 (Function.update V main_v63 x)) e h
theorem c13 (e : V11 m o c = V11 m o' c) (h : o 12 main_v78 c = o' 12 main_v78 c) : V13 m o c = V13 m o' c :=
  congrArg₂ (fun V x => StableHlo.after hostOps6 (Function.update V main_v78 x)) e h
end

def res0 (c : Dev nD) : Buf (Elt F) ((c : Thread nD τ).loc main_v31) := (dat0 (E0 m) c).arrAt 2 cfg0.N
def outsA : Outs (F := F) := setOut (outsNone) main_v31 (res0 m)

def res1 (c : Dev nD) : Buf (Elt F) ((c : Thread nD τ).loc main_v46) := (dat1 (E1 m (outsA m)) c).arrAt 4 cfg1.N
def outsB : Outs (F := F) := setOut (outsA m) main_v46 (res1 m)

def res2 (c : Dev nD) : Buf (Elt F) ((c : Thread nD τ).loc main_v47) := (dat2 (E2 m (outsB m)) c).arrAt 2 cfg2.N
def outsC : Outs (F := F) := setOut (outsB m) main_v47 (res2 m)

def res3 (c : Dev nD) : Buf (Elt F) ((c : Thread nD τ).loc main_v62) := (dat3 (E3 m (outsC m)) c).arrAt 4 cfg3.N
def outsD : Outs (F := F) := setOut (outsC m) main_v62 (res3 m)

def res4 (c : Dev nD) : Buf (Elt F) ((c : Thread nD τ).loc main_v63) := (dat4 (E4 m (outsD m)) c).arrAt 2 cfg4.N
def outsE : Outs (F := F) := setOut (outsD m) main_v63 (res4 m)

def res5 (c : Dev nD) : Buf (Elt F) ((c : Thread nD τ).loc main_v78) := (dat5 (E5 m (outsE m)) c).arrAt 4 cfg5.N
def outsF : Outs (F := F) := setOut (outsE m) main_v78 (res5 m)

def res6 (c : Dev nD) : Buf (Elt F) ((c : Thread nD τ).loc main_v81) := (dat6 (E6 m (outsF m)) c).arrAt 4 cfg6.N
def outsG : Outs (F := F) := setOut (outsF m) main_v81 (res6 m)

abbrev outsOf : Outs (F := F) := outsG m

/-- A region's result reads the same off the full contents as off the stage that set it. -/
theorem named_outsOf : Named m (outsOf m) := by
  have aF : Off _ (outsOf m) (outsF m) := Off.next (l := []) fun _ _ _ _ => rfl
  have aE : Off _ (outsOf m) (outsE m) := aF.next
  have aD : Off _ (outsOf m) (outsD m) := aE.next
  have aC : Off _ (outsOf m) (outsC m) := aD.next
  have aB : Off _ (outsOf m) (outsB m) := aC.next
  have aA : Off _ (outsOf m) (outsA m) := aB.next
  have e {V V' : Dev nD → Valuation τ sig (Elt F)} (h : ∀ c, V c = V' c) : (fun c (b : Ref sig .tc) => V' c b) = fun c (b : Ref sig .tc) => V c b :=
    funext fun c => funext fun b => (congrFun (h c) b).symm
  exact {
    h0 := fun c => (aA _ (by decide) c).trans (setOut_self ..)
    h1 := fun c => (aB _ (by decide) c).trans <| (setOut_self ..).trans <| congrArg (fun E => (dat1 E c).arrAt 4 cfg1.N) <| e fun c =>
      c5 m c (aA _ (by decide) c)
    h2 := fun c => (aC _ (by decide) c).trans <| (setOut_self ..).trans <| congrArg (fun E => (dat2 E c).arrAt 2 cfg2.N) <| e fun c =>
      c6 m c (c5 m c (aB _ (by decide) c)) (aB _ (by decide) c)
    h3 := fun c => (aD _ (by decide) c).trans <| (setOut_self ..).trans <| congrArg (fun E => (dat3 E c).arrAt 4 cfg3.N) <| e fun c =>
      c8 m c (c6 m c (c5 m c (aC _ (by decide) c)) (aC _ (by decide) c)) (aC _ (by decide) c)
    h4 := fun c => (aE _ (by decide) c).trans <| (setOut_self ..).trans <| congrArg (fun E => (dat4 E c).arrAt 2 cfg4.N) <| e fun c =>
      c9 m c (c8 m c (c6 m c (c5 m c (aD _ (by decide) c)) (aD _ (by decide) c)) (aD _ (by decide) c)) (aD _ (by decide) c)
    h5 := fun c => (aF _ (by decide) c).trans <| (setOut_self ..).trans <| congrArg (fun E => (dat5 E c).arrAt 4 cfg5.N) <| e fun c =>
      c11 m c (c9 m c (c8 m c (c6 m c (c5 m c (aE _ (by decide) c)) (aE _ (by decide) c)) (aE _ (by decide) c)) (aE _ (by decide) c)) (aE _ (by decide) c)
    h6 := fun c => (setOut_self ..).trans <| congrArg (fun E => (dat6 E c).arrAt 4 cfg6.N) <| e fun c =>
      c13 m c (c11 m c (c9 m c (c8 m c (c6 m c (c5 m c (aF _ (by decide) c)) (aF _ (by decide) c)) (aF _ (by decide) c)) (aF _ (by decide) c)) (aF _ (by decide) c)) (aF _ (by decide) c) }

end Cert.Kernel.Hand

end
-- ==== Proof.KB.Seg.lean ====
import proofs.«428546_j9294309228814_1_alg».proof.Proof.KB.Pdats

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (outs : Outs (F := F))

/-- A region that owes nothing and writes one array: entered at contents `E`, left at `E` with that array at `x`. -/
def regOf (p : Fin 7) (hl : Pipeline.LaunchFacts (nD := nD) (τ := τ) cfgs p)
    (E : Dev nD → Valuation τ sig (Elt F)) (wo : Fin (cfgs p).W)
    (x : (c : Dev nD) → Buf (Elt F) ((c : Thread nD τ).loc (Pipeline.arrRef (cfgs p).spec wo)))
    (hx : ∀ c, x c = (pdats m outs p c).arrAt wo (cfgs p).N)
    (hbody : ∀ c, BodyObligation (pdats m outs p c) defs₀ 𝒱₀ () Set.univ)
    (hio : ∀ w, w ≠ wo → ((cfgs p).win w).isOut = false := by decide)
    (hd : ∀ c, (∀ w, (pdats m outs p c).q w = fullShare) ∧ (∀ w, (pdats m outs p c).A w = E c (Pipeline.arrRef (cfgs p).spec w))
      ∧ (∀ t, (pdats m outs p c).owed t = 0) ∧ ∀ t, (pdats m outs p c).recorded t = Set.univ := by
      exact fun _ => ⟨fun _ => rfl, fun _ => rfl, fun _ => rfl, fun _ => rfl⟩)
    (hin : ∀ c, Pipeline.ΦA (cfgs p).spec c ⊢ (pdats m outs p c).Φ 0 := by exact fun _ => .rfl)
    (hout : ∀ c, (pdats m outs p c).Φ (Fin.last _) ⊢ Pipeline.ΦA (cfgs p).spec c := by exact fun _ => .rfl) :
    Pipeline.RegionSeg (pcfgs (F := F)) adm (pdats m outs) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c => (hd c).2.2.1
  pre c := iprop(StableHlo.held (c : Thread nD τ) (Pipeline.ucRefs τ sig) (E c) ∗ R c)
  post c := iprop(StableHlo.held (c : Thread nD τ) (Pipeline.ucRefs τ sig) (Function.update (E c) (Pipeline.arrRef (cfgs p).spec wo) (x c)) ∗ R c)
  X c := iprop(∃ r, prngReg c r)
  Y c := iprop(∃ r, prngReg c r)
  Z c := Pipeline.unscopedRest (cfgs p).spec c fun b => E c b
  hentry c := by
    rw [Pipeline.ownSems0_none]
    have hsplit := Pipeline.arrays_of_unscopedBufs (p := p) pcfgs adm (pdats m outs) hl.win hl.arr_whole c
      ((pdats m outs p c).share_full (hd c).1) (fun b => E c b) (hd c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(hd c).2.2.1, (hd c).2.2.2]
      icases HO with ⟨%W, HO⟩; iexists W; isplitr; · ipureintro; exact fun _ _ => Or.inl trivial
      iexact HO
    isplitl [Hp]; · iexact Hp
    iexact Hrest
  hin c := by
    refine .trans ?_ (hin c); unfold Pipeline.ΦA
    iintro ⟨Hp, -, Hr⟩
    isplitl [Hr] <;> iassumption
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) pcfgs adm hl.win hl.arr_whole c (pdats m outs) ((pdats m outs p c).share_full (hd c).1)
      (fun b => E c b) (fun b => Function.update (E c) (Pipeline.arrRef (cfgs p).spec wo) (x c) b) ((pdats m outs p c).arrAt · (cfgs p).N)
      (fun w => by
        by_cases h : w = wo
        · subst h; rw [Function.update_self]; exact (hx c).symm
        · exact (((pdats m outs p c).arrAt_in w (hio w h) _).trans ((hd c).2.1 w)).trans
            (Function.update_of_ne (fun e => h (hl.win.arr_inj (Proc.devRef_injective _ e))) ..).symm)
      (fun b hb => Function.update_of_ne (fun e => hb (Finset.mem_image.mpr ⟨wo, Finset.mem_univ _, (Proc.devRef_injective _ e).symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

def reg0 (h : Named m outs) : Pipeline.RegionSeg (pcfgs (F := F)) adm (pdats m outs) () defs₀ 𝒱₀ L lv 0 :=
  regOf m outs 0 launch0 (V3 m) 2 (outs 4 main_v31) h.h0 (body_obligation0 (E0 m))

def reg1 (h : Named m outs) : Pipeline.RegionSeg (pcfgs (F := F)) adm (pdats m outs) () defs₀ 𝒱₀ L lv 1 :=
  regOf m outs 1 launch1 (V5 m outs) 4 (outs 6 main_v46) h.h1 (body_obligation1 (E1 m outs))

def reg2 (h : Named m outs) : Pipeline.RegionSeg (pcfgs (F := F)) adm (pdats m outs) () defs₀ 𝒱₀ L lv 2 :=
  regOf m outs 2 launch2 (V6 m outs) 2 (outs 7 main_v47) h.h2 (body_obligation2 (E2 m outs))

def reg3 (h : Named m outs) : Pipeline.RegionSeg (pcfgs (F := F)) adm (pdats m outs) () defs₀ 𝒱₀ L lv 3 :=
  regOf m outs 3 launch3 (V8 m outs) 4 (outs 9 main_v62) h.h3 (body_obligation3 (E3 m outs))

def reg4 (h : Named m outs) : Pipeline.RegionSeg (pcfgs (F := F)) adm (pdats m outs) () defs₀ 𝒱₀ L lv 4 :=
  regOf m outs 4 launch4 (V9 m outs) 2 (outs 10 main_v63) h.h4 (body_obligation4 (E4 m outs))

def reg5 (h : Named m outs) : Pipeline.RegionSeg (pcfgs (F := F)) adm (pdats m outs) () defs₀ 𝒱₀ L lv 5 :=
  regOf m outs 5 launch5 (V11 m outs) 4 (outs 12 main_v78) h.h5 (body_obligation5 (E5 m outs))

def reg6 (h : Named m outs) : Pipeline.RegionSeg (pcfgs (F := F)) adm (pdats m outs) () defs₀ 𝒱₀ L lv 6 :=
  regOf m outs 6 launch6 (V13 m outs) 4 (outs 14 main_v81) h.h6 (body_obligation6 (E6 m outs))
    (hin := hin6 (E6 m outs)) (hout := hout6 (E6 m outs))

end Cert.Kernel.Hand

end
-- ==== Proof.KB.Frame.lean ====
import proofs.«428546_j9294309228814_1_alg».proof.Proof.Gen.Kernel.Regions
import proofs.«428546_j9294309228814_1_alg».proof.Proof.KB.LaunchFacts
import proofs.«428546_j9294309228814_1_alg».proof.Proof.KB.Outs
import proofs.«428546_j9294309228814_1_alg».proof.Proof.KB.Seg

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outsOf m) (pdats m (outsOf m)) (fun _ => 0) (fun _ => BI.emp) _ hu₀ (fun _ c => R c) (hE0 ρ) hE7
    (reg0 m (outsOf m) (named_outsOf m)) (fun _ => .rfl) (fun _ => .rfl)
    (reg1 m (outsOf m) (named_outsOf m)) (fun _ => .rfl) (fun _ => .rfl)
    (reg2 m (outsOf m) (named_outsOf m)) (fun _ => .rfl) (fun _ => .rfl)
    (reg3 m (outsOf m) (named_outsOf m)) (fun _ => .rfl) (fun _ => .rfl)
    (reg4 m (outsOf m) (named_outsOf m)) (fun _ => .rfl) (fun _ => .rfl)
    (reg5 m (outsOf m) (named_outsOf m)) (fun _ => .rfl) (fun _ => .rfl)
    (reg6 m (outsOf m) (named_outsOf m)) (fun _ => .rfl) (fun _ => .rfl)

end Cert.Kernel.Hand

end
-- ==== Proof.KI.Reg0.lean ====
import proofs.«428546_j9294309228814_1_alg».proof.Proof.Gen.KernelIdeal.Launch
import proofs.«428546_j9294309228814_1_alg».proof.Proof.Gen.KernelIdeal.Skeleton
import proofs.«428546_j9294309228814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x7 := Rect.unit (s := S2000x7) ![0, 0] S2000x7.size inb_S2000x7_S2000x7_0_0
abbrev r0_w : Rect S7x128 := Rect.unit (s := S7x128) ![0, 0] S7x128.size inb_S7x128_S7x128_0_0
abbrev r0_o : Rect S2000x128 := Rect.unit (s := S2000x128) ![0, 0] (Shape.size S2000x128) inb_S2000x128_S2000x128_0_0

def out0_2 (x0 : Vec F S2000x7 .f32) (x1 : Vec F S7x128 .f32) : Vec F S2000x128 .f32 :=
  View.canon [⟨r0_o, k0_pay1 (View.ld x0 r0_x) (View.ld x1 r0_w)⟩]

-- The body reads both inputs whole and stores the product over the whole output tile.
theorem sound_kernel0 (c : Dev nD) (E : Set ℕ) (i : grid0.Coords) (arg1 : Memref sig .tc .vmem S2000x7 .f32) (harg1 : arg1.IsWhole)
    (arg2 : Memref sig .tc .vmem S7x128 .f32) (harg2 : arg2.IsWhole) (arg3 : Memref sig .tc .vmem S2000x128 .f32) (harg3 : arg3.IsWhole)
    (x0 : Vec F S2000x7 .f32) (x1 : Vec F S7x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ fun y => View.cover_of_tiled [⟨r0_o, _⟩] S2000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.KernelIdeal.Hand

end
-- ==== Proof.KI.Reg1.lean ====
import proofs.«428546_j9294309228814_1_alg».proof.Proof.Gen.KernelIdeal.Launch
import proofs.«428546_j9294309228814_1_alg».proof.Proof.Gen.KernelIdeal.Skeleton
import proofs.«428546_j9294309228814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_t : Rect S2000x128 := Rect.unit (s := S2000x128) ![0, 0] S2000x128.size inb_S2000x128_S2000x128_0_0
abbrev r1_c : Rect S2000x1 := Rect.unit (s := S2000x1) ![0, 0] S2000x1.size inb_S2000x1_S2000x1_0_0
abbrev r1_b : Rect S1x128 := Rect.unit (s := S1x128) ![0, 0] S1x128.size inb_S1x128_S1x128_0_0

-- The body's first load is of window 1, its second of window 0.
def out1_4 (x0 : Vec F S2000x128 .f32) (x1 : Vec F S2000x128 .f32) (x2 : Vec F S2000x1 .f32) (x3 : Vec F S1x128 .f32) : Vec F S2000x128 .f32 :=
  View.canon [⟨r1_t, k1_pay1 (View.ld x1 r1_t) (View.ld x0 r1_t) (View.ld x2 r1_c) (View.ld x3 r1_b)⟩]

-- The body reads its four inputs whole and stores the combined tile over the whole output tile.
theorem sound_kernel1 (c : Dev nD) (E : Set ℕ) (i : grid1.Coords) (arg1 : Memref sig .tc .vmem S2000x128 .f32) (harg1 : arg1.IsWhole)
    (arg2 : Memref sig .tc .vmem S2000x128 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ fun y => View.cover_of_tiled [⟨r1_t, _⟩] S2000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl, after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

end Cert.KernelIdeal.Hand

end
-- ==== Proof.KI.Reg2.lean ====
import proofs.«428546_j9294309228814_1_alg».proof.Proof.Gen.KernelIdeal.Launch
import proofs.«428546_j9294309228814_1_alg».proof.Proof.Gen.KernelIdeal.Skeleton
import proofs.«428546_j9294309228814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S2000x128 := Rect.unit (s := S2000x128) ![0, 0] S2000x128.size inb_S2000x128_S2000x128_0_0
abbrev r2_w : Rect S128x128 := Rect.unit (s := S128x128) ![0, 0] S128x128.size inb_S128x128_S128x128_0_0
abbrev r2_o : Rect S2000x128 := Rect.unit (s := S2000x128) ![0, 0] (Shape.size S2000x128) inb_S2000x128_S2000x128_0_0

def out2_2 (x0 : Vec F S2000x128 .f32) (x1 : Vec F S128x128 .f32) : Vec F S2000x128 .f32 :=
  View.canon [⟨r2_o, k2_pay1 (View.ld x0 r2_x) (View.ld x1 r2_w)⟩]

-- The body reads both inputs whole and stores the product over the whole output tile.
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ fun y => View.cover_of_tiled [⟨r2_o, _⟩] S2000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  unfold bodyAt2
  simp only [before2_0, before2_1]
  rw [show (dat2 V c).Φ t.succ = (dat2 V c).Φ t.castSucc from rfl,
    show (dat2 V c).owesAt () t.succ = (dat2 V c).owesAt () t.castSucc from rfl, after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

end Cert.KernelIdeal.Hand

end
-- ==== Proof.KI.Reg3.lean ====
import proofs.«428546_j9294309228814_1_alg».proof.Proof.KI.Reg1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Region 3 runs the body of region 1.
theorem cc3_eq : @cc3__combine_kernel F _ = @cc1__combine_kernel F _ := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  unfold bodyAt3
  rw [cc3_eq]
  simp only [before3_0, before3_1, before3_2, before3_3]
  rw [show (dat3 V c).Φ t.succ = (dat3 V c).Φ t.castSucc from rfl,
    show (dat3 V c).owesAt () t.succ = (dat3 V c).owesAt () t.castSucc from rfl, after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

end Cert.KernelIdeal.Hand

end
-- ==== Proof.KI.Reg4.lean ====
import proofs.«428546_j9294309228814_1_alg».proof.Proof.KI.Reg2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- Region 4 runs the body of region 2.
theorem cc4_eq : @cc4__linear_kernel F _ = @cc2__linear_kernel F _ := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  unfold bodyAt4
  rw [cc4_eq]
  simp only [before4_0, before4_1]
  rw [show (dat4 V c).Φ t.succ = (dat4 V c).Φ t.castSucc from rfl,
    show (dat4 V c).owesAt () t.succ = (dat4 V c).owesAt () t.castSucc from rfl, after4_0, after4_1, after4_2]
  iintro ⟨HΦ, Ho, ⟨%d0, H0⟩, ⟨%d1, H1⟩, ⟨%d2, H2⟩⟩
  iapply (sound_kernel2 c Set.univ _ _ _ _ _ _ _ (iblk4 V c 0 t) (iblk4 V c 1 t) _)
  iframe H0 H1
  isplitl [H2]; · iexists _; iexact H2
  iintro ⟨H0, H1, H2⟩
  iframe

end Cert.KernelIdeal.Hand

end
-- ==== Proof.KI.Reg5.lean ====
import proofs.«428546_j9294309228814_1_alg».proof.Proof.Gen.KernelIdeal.Launch
import proofs.«428546_j9294309228814_1_alg».proof.Proof.Gen.KernelIdeal.Skeleton
import proofs.«428546_j9294309228814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_t : Rect S2000x128 := Rect.unit (s := S2000x128) ![0, 0] S2000x128.size inb_S2000x128_S2000x128_0_0
abbrev r5_c : Rect S2000x1 := Rect.unit (s := S2000x1) ![0, 0] S2000x1.size inb_S2000x1_S2000x1_0_0
abbrev r5_b : Rect S1x128 := Rect.unit (s := S1x128) ![0, 0] S1x128.size inb_S1x128_S1x128_0_0

-- The body's first load is of window 1, its second of window 0.
def out5_4 (x0 : Vec F S2000x128 .f32) (x1 : Vec F S2000x128 .f32) (x2 : Vec F S2000x1 .f32) (x3 : Vec F S1x128 .f32) : Vec F S2000x128 .f32 :=
  View.canon [⟨r5_t, k5_pay1 (View.ld x1 r5_t) (View.ld x0 r5_t) (View.ld x2 r5_c) (View.ld x3 r5_b)⟩]

-- The body reads its four inputs whole and stores the combined tile over the whole output tile.
theorem sound_kernel5 (c : Dev nD) (E : Set ℕ) (i : grid5.Coords) (arg1 : Memref sig .tc .vmem S2000x128 .f32) (harg1 : arg1.IsWhole)
    (arg2 : Memref sig .tc .vmem S2000x128 .f32) (harg2 : arg2.IsWhole) (arg3 : Memref sig .tc .vmem S2000x1 .f32) (harg3 : arg3.IsWhole)
    (arg4 : Memref sig .tc .vmem S1x128 .f32) (harg4 : arg4.IsWhole) (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ fun y => View.cover_of_tiled [⟨r5_t, _⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  unfold bodyAt5
  simp only [before5_0, before5_1, before5_2, before5_3]
  rw [show (dat5 V c).Φ t.succ = (dat5 V c).Φ t.castSucc from rfl,
    show (dat5 V c).owesAt () t.succ = (dat5 V c).owesAt () t.castSucc from rfl, after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe

end Cert.KernelIdeal.Hand

end
-- ==== Proof.KI.Reg6Runs.lean ====
import proofs.«428546_j9294309228814_1_alg».proof.Proof.Gen.KernelIdeal.Launch
import proofs.«428546_j9294309228814_1_alg».proof.Proof.Gen.KernelIdeal.Skeleton
import proofs.«428546_j9294309228814_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin grid6.N, cond6_0 (grid6.coords t) ↔ t.val = 0 := by decide +kernel

abbrev cond6_1 (i : grid6.Coords) : Prop := k6_cond2 i = 1#1
theorem hcond6_1 : ∀ t : Fin grid6.N, cond6_1 (grid6.coords t) ↔ t.val = 24 := by decide +kernel

theorem idleAt6_4 : ∀ t : Fin grid6.N, ¬cond6_1 (grid6.coords t) → cfg6.idle 4 (grid6.coords t) = true := by decide +kernel
theorem noFlush6_4 : ∀ t : Fin grid6.N, ¬cond6_1 (grid6.coords t) → (cfg6.win 4).flush t = false := by decide +kernel
theorem liveAt6_4 : ∀ t : Fin grid6.N, cond6_1 (grid6.coords t) → cfg6.idle 4 (grid6.coords t) = false := by decide +kernel

abbrev scM6_0 : Memref sig .tc .vmem S64x128 .f32 := Memref.whole cc6_scratch0
abbrev scM6_1 : Memref sig .tc .vmem S64x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.KernelIdeal.Hand

end
-- ==== Proof.KI.Reg6Whole.lean ====
import proofs.«428546_j9294309228814_1_alg».proof.Proof.KI.Reg6Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz6 : (![0, 0] : Fin 2 → ℕ) = fun _ => 0 := by funext a; fin_cases a <;> rfl

variable {S : Shape} {e : EltTy} {sig' : RefSig} {κ : Kind} {sp : Space} (v : View sig' κ sp S e)
  {off : Fin S.rank → ℕ} (hz : off = fun _ => 0) (inb : ∀ a, off a + S.size a ≤ S.size a)
include hz

theorem readAt6 (f : v.ty.Contents (Elt F)) : v.readAt (Elt F) (Rect.unit off S.size inb).toLoadRect f = v.read (Elt F) f :=
  View.ld_unit_zero hz inb (v.read (Elt F) f)

theorem stored6 (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans (View.canon_cons_unit_zero hz inb w L)

theorem readCov6 (w : S.Idx → Elt F e) :
    v.readCov [(⟨Rect.unit off S.size inb, w⟩ : View.Piece (Elt F) S e)] (Rect.unit off S.size inb).toLoadRect = w :=
  View.readCov_unit_zero v hz inb w

end Cert.KernelIdeal.Hand

end
-- ==== Proof.KI.Reg6Run.lean ====
import proofs.«428546_j9294309228814_1_alg».proof.Proof.KI.Reg6Whole

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (arg1 : Memref sig .tc .vmem S2000x128 .f32) (arg2 : Memref sig .tc .vmem S2000x1 .i32)
  (arg3 : Memref sig .tc .vmem S128x5 .f32) (arg4 : Memref sig .tc .vmem S1x5 .f32)
  (x0 : Vec F S2000x128 .f32) (x1 : Vec F S2000x1 .i32) (x2 : Vec F S128x5 .f32) (x3 : Vec F S1x5 .f32)

/-- The four input buffers at their blocks: every case of the body needs them and hands them back as found. -/
abbrev ins6 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)

variable {c arg1 arg2 arg3 arg4} {E : Set ℕ} {i : grid6.Coords} {harg1 : arg1.IsWhole} {harg2 : arg2.IsWhole} {harg3 : arg3.IsWhole} {harg4 : arg4.IsWhole}
  {arg5 : Memref sig .tc .vmem S64x5 .f32} {harg5 : arg5.IsWhole} {arg6 : Memref sig .tc .vmem S64x128 .f32} {harg6 : arg6.IsWhole}
  {arg7 : Memref sig .tc .vmem S64x1 .f32} {harg7 : arg7.IsWhole}
  (x4 : Vec F S64x5 .f32) (xs0 : Vec F S64x128 .f32) (xs1 : Vec F S64x1 .f32)

/-- First point: the accumulators, held at anything, are reset and the tile's contribution added; the result buffer is handed back as found. -/
theorem run6_A {K : PUnit → sProp 𝕄} (hc0 : cond6_0 i) (hc1 : ¬cond6_1 i) :
    iprop(ins6 c arg1 arg2 arg3 arg4 x0 x1 x2 x3 ∗ owns (c : Thread nD τ) arg5 fullShare x4 ∗ (∃ d, owns (c : Thread nD τ) arg6 fullShare d) ∗ (∃ d, owns (c : Thread nD τ) arg7 fullShare d)
        ∗ (iprop(ins6 c arg1 arg2 arg3 arg4 x0 x1 x2 x3 ∗ owns (c : Thread nD τ) arg5 fullShare x4 ∗ owns (c : Thread nD τ) arg6 fullShare (k6_pay4 x0 x1 (k6_pay1 (F := F))) ∗ owns (c : Thread nD τ) arg7 fullShare (k6_pay5 x1 (k6_pay2 (F := F)))) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%f4, %hf4, H4⟩, ⟨%d5, %f5, -, H5⟩, ⟨%d6, %f6, -, H6⟩, Hk⟩
  subst hf0 hf1 hf2 hf3 hf4
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists f4; isplitr; · ipureintro; rfl
    iexact H4
  isplitl [H5]
  · iexists _; isplitr
    swap; · iexact H5
    ipureintro
    sl_unfold_words
    refine (stored6 _ hz6 _ _ _ _).trans ?_
    rw [readAt6 arg1.view hz6 _ f0, readAt6 arg2.view hz6 _ f1, readCov6 arg6.view hz6 _ _]
  iexists _; isplitr
  swap; · iexact H6
  ipureintro
  sl_unfold_words
  refine (stored6 _ hz6 _ _ _ _).trans ?_
  rw [readAt6 arg2.view hz6 _ f1, readCov6 arg7.view hz6 _ _]

/-- Middle point: the tile's contribution is added to what the accumulators held; the result buffer is handed back as found. -/
theorem run6_B {K : PUnit → sProp 𝕄} (hc0 : ¬cond6_0 i) (hc1 : ¬cond6_1 i) :
    iprop(ins6 c arg1 arg2 arg3 arg4 x0 x1 x2 x3 ∗ owns (c : Thread nD τ) arg5 fullShare x4 ∗ owns (c : Thread nD τ) arg6 fullShare xs0 ∗ owns (c : Thread nD τ) arg7 fullShare xs1
        ∗ (iprop(ins6 c arg1 arg2 arg3 arg4 x0 x1 x2 x3 ∗ owns (c : Thread nD τ) arg5 fullShare x4 ∗ owns (c : Thread nD τ) arg6 fullShare (k6_pay4 x0 x1 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%f4, %hf4, H4⟩, ⟨%f5, %hf5, H5⟩, ⟨%f6, %hf6, H6⟩, Hk⟩
  subst hf0 hf1 hf2 hf3 hf4 hf5 hf6
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists f4; isplitr; · ipureintro; rfl
    iexact H4
  isplitl [H5]
  · iexists _; isplitr
    swap; · iexact H5
    ipureintro
    sl_unfold_words
    refine (stored6 _ hz6 _ _ _ _).trans ?_
    rw [readAt6 arg1.view hz6 _ f0, readAt6 arg2.view hz6 _ f1, readAt6 arg6.view hz6 _ f5]
  iexists _; isplitr
  swap; · iexact H6
  ipureintro
  sl_unfold_words
  refine (stored6 _ hz6 _ _ _ _).trans ?_
  rw [readAt6 arg2.view hz6 _ f1, readAt6 arg7.view hz6 _ f6]

/-- Last point: as at a middle point, and the result buffer, held at anything, is left at the classifier applied to the updated accumulators. -/
theorem run6_C {K : PUnit → sProp 𝕄} (hc0 : ¬cond6_0 i) (hc1 : cond6_1 i) :
    iprop(ins6 c arg1 arg2 arg3 arg4 x0 x1 x2 x3 ∗ (∃ d, owns (c : Thread nD τ) arg5 fullShare d) ∗ owns (c : Thread nD τ) arg6 fullShare xs0 ∗ owns (c : Thread nD τ) arg7 fullShare xs1
        ∗ (iprop(ins6 c arg1 arg2 arg3 arg4 x0 x1 x2 x3 ∗ owns (c : Thread nD τ) arg5 fullShare (k6_pay6 (k6_pay4 x0 x1 xs0) (k6_pay5 x1 xs1) x2 x3) ∗ owns (c : Thread nD τ) arg6 fullShare (k6_pay4 x0 x1 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel ins6 owns
  iintro ⟨⟨⟨%f0, %hf0, H0⟩, ⟨%f1, %hf1, H1⟩, ⟨%f2, %hf2, H2⟩, ⟨%f3, %hf3, H3⟩⟩, ⟨%d4, %f4, -, H4⟩, ⟨%f5, %hf5, H5⟩, ⟨%f6, %hf6, H6⟩, Hk⟩
  subst hf0 hf1 hf2 hf3 hf5 hf6
  sl_exec (disch := first | exact hc0 | exact hc1)
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H4]
  · iexists _; isplitr
    swap; · iexact H4
    ipureintro
    sl_unfold_words
    refine (stored6 _ hz6 _ _ _ _).trans ?_
    rw [readCov6 arg6.view hz6 _ _, readCov6 arg7.view hz6 _ _, readAt6 arg1.view hz6 _ f0, readAt6 arg2.view hz6 _ f1, readAt6 arg6.view hz6 _ f5, readAt6 arg7.view hz6 _ f6, readAt6 arg3.view hz6 _ f2, readAt6 arg4.view hz6 _ f3]
  isplitl [H5]
  · iexists _; isplitr
    swap; · iexact H5
    ipureintro
    sl_unfold_words
    refine (stored6 _ hz6 _ _ _ _).trans ?_
    rw [readAt6 arg1.view hz6 _ f0, readAt6 arg2.view hz6 _ f1, readAt6 arg6.view hz6 _ f5]
  iexists _; isplitr
  swap; · iexact H6
  ipureintro
  sl_unfold_words
  refine (stored6 _ hz6 _ _ _ _).trans ?_
  rw [readAt6 arg2.view hz6 _ f1, readAt6 arg7.view hz6 _ f6]

end Cert.KernelIdeal.Hand

end
-- ==== Proof.KI.Reg6.lean ====
import proofs.«428546_j9294309228814_1_alg».proof.Proof.KI.Reg6Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def outsAt6 (c : Dev nD) : (n : ℕ) → n < cfg6.N → Vec F S64x5 .f32 × Vec F S64x128 .f32 × Vec F S64x1 .f32
  | 0, h =>
    (k6_pay6 (k6_pay4 (iblk6 V c 0 ⟨0, h⟩) (iblk6 V c 1 ⟨0, h⟩) (k6_pay1 (F := F))) (k6_pay5 (iblk6 V c 1 ⟨0, h⟩) (k6_pay2 (F := F)))
        (iblk6 V c 2 ⟨0, h⟩) (iblk6 V c 3 ⟨0, h⟩),
      k6_pay4 (iblk6 V c 0 ⟨0, h⟩) (iblk6 V c 1 ⟨0, h⟩) (k6_pay1 (F := F)),
      k6_pay5 (iblk6 V c 1 ⟨0, h⟩) (k6_pay2 (F := F)))
  | n + 1, h =>
    (k6_pay6 (k6_pay4 (iblk6 V c 0 ⟨n + 1, h⟩) (iblk6 V c 1 ⟨n + 1, h⟩) (outsAt6 c n (Nat.lt_of_succ_lt h)).2.1)
        (k6_pay5 (iblk6 V c 1 ⟨n + 1, h⟩) (outsAt6 c n (Nat.lt_of_succ_lt h)).2.2)
        (iblk6 V c 2 ⟨n + 1, h⟩) (iblk6 V c 3 ⟨n + 1, h⟩),
      k6_pay4 (iblk6 V c 0 ⟨n + 1, h⟩) (iblk6 V c 1 ⟨n + 1, h⟩) (outsAt6 c n (Nat.lt_of_succ_lt h)).2.1,
      k6_pay5 (iblk6 V c 1 ⟨n + 1, h⟩) (outsAt6 c n (Nat.lt_of_succ_lt h)).2.2)

theorem outsAt6_sums_zero (c : Dev nD) (h : 0 < cfg6.N) :
    (outsAt6 V c 0 h).2.1 = k6_pay4 (iblk6 V c 0 ⟨0, h⟩) (iblk6 V c 1 ⟨0, h⟩) (k6_pay1 (F := F)) := rfl
theorem outsAt6_sums_succ (c : Dev nD) (n : ℕ) (h : n + 1 < cfg6.N) :
    (outsAt6 V c (n + 1) h).2.1 = k6_pay4 (iblk6 V c 0 ⟨n + 1, h⟩) (iblk6 V c 1 ⟨n + 1, h⟩) (outsAt6 V c n (Nat.lt_of_succ_lt h)).2.1 := rfl
theorem outsAt6_cnt_zero (c : Dev nD) (h : 0 < cfg6.N) :
    (outsAt6 V c 0 h).2.2 = k6_pay5 (iblk6 V c 1 ⟨0, h⟩) (k6_pay2 (F := F)) := rfl
theorem outsAt6_cnt_succ (c : Dev nD) (n : ℕ) (h : n + 1 < cfg6.N) :
    (outsAt6 V c (n + 1) h).2.2 = k6_pay5 (iblk6 V c 1 ⟨n + 1, h⟩) (outsAt6 V c n (Nat.lt_of_succ_lt h)).2.2 := rfl
theorem outsAt6_out (c : Dev nD) (n : ℕ) (h : n < cfg6.N) :
    (outsAt6 V c n h).1 = k6_pay6 (outsAt6 V c n h).2.1 (outsAt6 V c n h).2.2 (iblk6 V c 2 ⟨n, h⟩) (iblk6 V c 3 ⟨n, h⟩) := by
  cases n <;> rfl

/-- The two accumulators, the group sums and the group counts, at given contents. -/
def acc6 (c : Dev nD) (s : Vec F S64x128 .f32) (k : Vec F S64x1 .f32) : sProp 𝕄 :=
  iprop(iprop(iprop(owns (c : Thread nD τ) scM6_0 fullShare s ∗ owns (c : Thread nD τ) scM6_1 fullShare k)
    ∗ Pipeline.scopedRestBut (Ix := Unit) (Name := ℕ) (U := UR sig nD τ) (Lvl := ℕ) (Val := Elt F) spec6 c [cc6_scratch0, cc6_scratch1]) ∗ (∃ r, prngReg c r))

/-- The invariant before point n: the accumulators hold what the point before left. -/
def PhiS6 (c : Dev nD) : (n : ℕ) → n ≤ cfg6.N → sProp 𝕄
  | 0, _ => Pipeline.ΦA spec6 c
  | n + 1, hn => acc6 c (outsAt6 V c n hn).2.1 (outsAt6 V c n hn).2.2

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem after6_4 (c : Dev nD) (t : Fin cfg6.N) : (dat6 V c).after 4 t = (outsAt6 V c t.val t.isLt).1 := rfl

theorem outsAt6_first (c : Dev nD) (t : Fin cfg6.N) (h0 : t.val = 0) :
    (outsAt6 V c t.val t.isLt).2.1 = k6_pay4 (iblk6 V c 0 t) (iblk6 V c 1 t) (k6_pay1 (F := F))
      ∧ (outsAt6 V c t.val t.isLt).2.2 = k6_pay5 (iblk6 V c 1 t) (k6_pay2 (F := F)) := by
  obtain ⟨_ | n, hn⟩ := t
  · exact ⟨rfl, rfl⟩
  · exact absurd h0 (Nat.succ_ne_zero n)
theorem outsAt6_later (c : Dev nD) (t : Fin cfg6.N) (h0 : t.val ≠ 0) :
    (outsAt6 V c t.val t.isLt).2.1 = k6_pay4 (iblk6 V c 0 t) (iblk6 V c 1 t) (outsAt6 V c (t.val - 1) (Nat.lt_of_le_of_lt (Nat.sub_le _ _) t.isLt)).2.1
      ∧ (outsAt6 V c t.val t.isLt).2.2 = k6_pay5 (iblk6 V c 1 t) (outsAt6 V c (t.val - 1) (Nat.lt_of_le_of_lt (Nat.sub_le _ _) t.isLt)).2.2 := by
  obtain ⟨_ | n, hn⟩ := t
  · exact absurd rfl h0
  · exact ⟨rfl, rfl⟩
theorem outsAt6_out_at (c : Dev nD) (t : Fin cfg6.N) :
    (outsAt6 V c t.val t.isLt).1 = k6_pay6 (outsAt6 V c t.val t.isLt).2.1 (outsAt6 V c t.val t.isLt).2.2 (iblk6 V c 2 t) (iblk6 V c 3 t) :=
  outsAt6_out V c t.val t.isLt

theorem PhiS6_zero (c : Dev nD) (n : ℕ) (h : n ≤ cfg6.N) (hz : n = 0) : PhiS6 V c n h = Pipeline.ΦA spec6 c := by
  subst hz; rfl
theorem PhiS6_pos (c : Dev nD) (n : ℕ) (h : n ≤ cfg6.N) (hz : n ≠ 0) :
    PhiS6 V c n h = acc6 c (outsAt6 V c (n - 1) (by omega)).2.1 (outsAt6 V c (n - 1) (by omega)).2.2 := by
  cases n with
  | zero => exact absurd rfl hz
  | succ n => rfl
theorem PhiS6_castSucc (c : Dev nD) (t : Fin cfg6.N) :
    (dat6 V c).Φ t.castSucc = PhiS6 V c t.val (Nat.le_of_lt t.isLt) := by
  dsimp only [dat6]; simp only [Fin.coe_castSucc]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

set_option maxHeartbeats 4800000 in
/-- The body at any point, by its three cases: the first point, a middle point, the last point. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d)))
      ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t ∗ (dat6 V c).leavesExact 4 t)) := by
  unfold bodyAt6
  simp only [before6_0, before6_1, before6_2, before6_3]
  rw [show (dat6 V c).owesAt () t.succ = (dat6 V c).owesAt () t.castSucc from rfl,
    show (dat6 V c).Φ t.succ = acc6 c (outsAt6 V c t.val t.isLt).2.1 (outsAt6 V c t.val t.isLt).2.2 from rfl,
    show (dat6 V c).leavesExact 0 t = owns (c : Thread nD τ) (st6_0 t) fullShare (iblk6 V c 0 t) from rfl,
    show (dat6 V c).leavesExact 1 t = owns (c : Thread nD τ) (st6_1 t) fullShare (iblk6 V c 1 t) from rfl,
    show (dat6 V c).leavesExact 2 t = owns (c : Thread nD τ) (st6_2 t) fullShare (iblk6 V c 2 t) from rfl,
    show (dat6 V c).leavesExact 3 t = owns (c : Thread nD τ) (st6_3 t) fullShare (iblk6 V c 3 t) from rfl,
    PhiS6_castSucc V c t]
  by_cases h0 : t.val = 0
  · have hc1 : ¬cond6_1 (grid6.coords t) := fun h => by have := (hcond6_1 t).mp h; omega
    rw [Dat.leavesExact_idle (dat6 V c) 4 t (idleAt6_4 t hc1) (noFlush6_4 t hc1), PhiS6_zero V c _ _ h0, PhiA6_eq,
      (outsAt6_first V c t h0).1, (outsAt6_first V c t h0).2]
    unfold acc6
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run6_A (iblk6 V c 0 t) (iblk6 V c 1 t) (iblk6 V c 2 t) (iblk6 V c 3 t) ((dat6 V c).before 4 t d4) ((hcond6_0 t).mpr h0) hc1)
    unfold ins6
    iframe H0 H1 H2 H3 H4 HS0 HS1
    iintro ⟨⟨H0, H1, H2, H3⟩, H4, HS0, HS1⟩
    iframe
    iexists _; iexact H4
  · have hc0 : ¬cond6_0 (grid6.coords t) := fun h => h0 ((hcond6_0 t).mp h)
    rw [PhiS6_pos V c _ _ h0, (outsAt6_later V c t h0).1, (outsAt6_later V c t h0).2]
    unfold acc6
    by_cases h1 : t.val = 24
    · have hc1 : cond6_1 (grid6.coords t) := (hcond6_1 t).mpr h1
      rw [show (dat6 V c).leavesExact 4 t = owns (c : Thread nD τ) (st6_4 t) fullShare ((dat6 V c).after 4 t) from by
        unfold Dat.leavesExact; rw [liveAt6_4 t hc1], after6_4, outsAt6_out_at V c t, (outsAt6_later V c t h0).1, (outsAt6_later V c t h0).2]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run6_C (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2 hc0 hc1)
      unfold ins6
      iframe H0 H1 H2 H3 HS0 HS1
      isplitl [H4]; · iexists _; iexact H4
      iintro ⟨⟨H0, H1, H2, H3⟩, H4, HS0, HS1⟩
      iframe
    · have hc1 : ¬cond6_1 (grid6.coords t) := fun h => h1 ((hcond6_1 t).mp h)
      rw [Dat.leavesExact_idle (dat6 V c) 4 t (idleAt6_4 t hc1) (noFlush6_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run6_B (iblk6 V c 0 t) (iblk6 V c 1 t) (iblk6 V c 2 t) (iblk6 V c 3 t) ((dat6 V c).before 4 t d4) (outsAt6 V c (t.val - 1) (Nat.lt_of_le_of_lt (Nat.sub_le _ _) t.isLt)).2.1 (outsAt6 V c (t.val - 1) (Nat.lt_of_le_of_lt (Nat.sub_le _ _) t.isLt)).2.2 hc0 hc1)
      unfold ins6
      iframe H0 H1 H2 H3 H4 HS0 HS1
      iintro ⟨⟨H0, H1, H2, H3⟩, H4, HS0, HS1⟩
      iframe
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _

/-- After the last point the accumulators' contents are forgotten. -/
theorem hout6 (c : Dev nD) : (dat6 V c).Φ (Fin.last cfg6.N) ⊢ Pipeline.ΦA spec6 c := by
  rw [PhiA6_eq, show (dat6 V c).Φ (Fin.last cfg6.N) = acc6 c (outsAt6 V c 24 (by decide)).2.1 (outsAt6 V c 24 (by decide)).2.2 from rfl]
  unfold acc6
  iintro ⟨⟨⟨HS0, HS1⟩, HR⟩, Hg⟩
  iframe HR Hg
  isplitl [HS0]
  · iexists _; iexact HS0
  iexists _; iexact HS1

end Cert.KernelIdeal.Hand

end
-- ==== Proof.KI.Pdats.lean ====
import proofs.«428546_j9294309228814_1_alg».proof.Proof.Gen.KernelIdeal.Regions
import proofs.«428546_j9294309228814_1_alg».proof.Proof.KI.Reg0
import proofs.«428546_j9294309228814_1_alg».proof.Proof.KI.Reg1
import proofs.«428546_j9294309228814_1_alg».proof.Proof.KI.Reg2
import proofs.«428546_j9294309228814_1_alg».proof.Proof.KI.Reg3
import proofs.«428546_j9294309228814_1_alg».proof.Proof.KI.Reg4
import proofs.«428546_j9294309228814_1_alg».proof.Proof.KI.Reg5
import proofs.«428546_j9294309228814_1_alg».proof.Proof.KI.Reg6

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev E0 (c : Dev nD) (b : Ref sig .tc) : Buf (Elt F) ((c : Thread nD τ).loc b) := V3 m c b
abbrev E1 (c : Dev nD) (b : Ref sig .tc) : Buf (Elt F) ((c : Thread nD τ).loc b) := V5 m outs c b
abbrev E2 (c : Dev nD) (b : Ref sig .tc) : Buf (Elt F) ((c : Thread nD τ).loc b) := V6 m outs c b
abbrev E3 (c : Dev nD) (b : Ref sig .tc) : Buf (Elt F) ((c : Thread nD τ).loc b) := V8 m outs c b
abbrev E4 (c : Dev nD) (b : Ref sig .tc) : Buf (Elt F) ((c : Thread nD τ).loc b) := V9 m outs c b
abbrev E5 (c : Dev nD) (b : Ref sig .tc) : Buf (Elt F) ((c : Thread nD τ).loc b) := V11 m outs c b
abbrev E6 (c : Dev nD) (b : Ref sig .tc) : Buf (Elt F) ((c : Thread nD τ).loc b) := V13 m outs c b

def pdats : (p : Fin 7) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c
  | ⟨5, _⟩ => fun c => dat5 (E5 m outs) c
  | ⟨6, _⟩ => fun c => dat6 (E6 m outs) c

structure Named : Prop where
  h0 : ∀ c, outs 4 main_v31 c = (dat0 (E0 m) c).arrAt 2 cfg0.N
  h1 : ∀ c, outs 6 main_v46 c = (dat1 (E1 m outs) c).arrAt 4 cfg1.N
  h2 : ∀ c, outs 7 main_v47 c = (dat2 (E2 m outs) c).arrAt 2 cfg2.N
  h3 : ∀ c, outs 9 main_v62 c = (dat3 (E3 m outs) c).arrAt 4 cfg3.N
  h4 : ∀ c, outs 10 main_v63 c = (dat4 (E4 m outs) c).arrAt 2 cfg4.N
  h5 : ∀ c, outs 12 main_v78 c = (dat5 (E5 m outs) c).arrAt 4 cfg5.N
  h6 : ∀ c, outs 14 main_v81 c = (dat6 (E6 m outs) c).arrAt 4 cfg6.N

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.KI.LaunchFacts.lean ====
import proofs.«428546_j9294309228814_1_alg».proof.Proof.KI.Pdats

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_of_launch (ρ : Dev nD → PrngReg) (c : Dev nD) :
    (iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)) : sProp 𝕄) ⊢ R c := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => (R c : sProp 𝕄)) : sProp 𝕄) := by
  have hmono : (bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
      ⊢ (bigSep Finset.univ (fun c : Dev nD => (R c : sProp 𝕄)) : sProp 𝕄) :=
    bigSep_mono fun c _ => rest_of_launch (F := F) ρ c
  iintro ⟨H, -⟩
  imodintro
  iapply hmono
  iexact H

theorem hE7 (c : Dev nD) : (R c : sProp 𝕄) ⊢ (iprop(∃ W, owes (c : Thread nD τ) (0 : CellTallies nD τ sig Unit) W) : sProp 𝕄) := by
  iintro ⟨-, HO⟩; iexact HO

end Cert.KernelIdeal.Hand

end
-- ==== Proof.KI.Seg.lean ====
import proofs.«428546_j9294309228814_1_alg».proof.Proof.KI.Pdats

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (outs : Outs (F := F))

/-- A region that owes nothing and writes one array: entered at contents `E`, left at `E` with that array at `x`. -/
def regOf (p : Fin 7) (hl : Pipeline.LaunchFacts (nD := nD) (τ := τ) cfgs p)
    (E : Dev nD → Valuation τ sig (Elt F)) (wo : Fin (cfgs p).W)
    (x : (c : Dev nD) → Buf (Elt F) ((c : Thread nD τ).loc (Pipeline.arrRef (cfgs p).spec wo)))
    (hx : ∀ c, x c = (pdats m outs p c).arrAt wo (cfgs p).N)
    (hbody : ∀ c, BodyObligation (pdats m outs p c) defs₀ 𝒱₀ () Set.univ)
    (hio : ∀ w, w ≠ wo → ((cfgs p).win w).isOut = false := by decide)
    (hd : ∀ c, (∀ w, (pdats m outs p c).q w = fullShare) ∧ (∀ w, (pdats m outs p c).A w = E c (Pipeline.arrRef (cfgs p).spec w))
      ∧ (∀ t, (pdats m outs p c).owed t = 0) ∧ ∀ t, (pdats m outs p c).recorded t = Set.univ := by
      exact fun _ => ⟨fun _ => rfl, fun _ => rfl, fun _ => rfl, fun _ => rfl⟩)
    (hin : ∀ c, Pipeline.ΦA (cfgs p).spec c ⊢ (pdats m outs p c).Φ 0 := by exact fun _ => .rfl)
    (hout : ∀ c, (pdats m outs p c).Φ (Fin.last _) ⊢ Pipeline.ΦA (cfgs p).spec c := by exact fun _ => .rfl) :
    Pipeline.RegionSeg (pcfgs (F := F)) adm (pdats m outs) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c => (hd c).2.2.1
  pre c := iprop(StableHlo.held (c : Thread nD τ) (Pipeline.ucRefs τ sig) (E c) ∗ R c)
  post c := iprop(StableHlo.held (c : Thread nD τ) (Pipeline.ucRefs τ sig) (Function.update (E c) (Pipeline.arrRef (cfgs p).spec wo) (x c)) ∗ R c)
  X c := iprop(∃ r, prngReg c r)
  Y c := iprop(∃ r, prngReg c r)
  Z c := Pipeline.unscopedRest (cfgs p).spec c fun b => E c b
  hentry c := by
    rw [Pipeline.ownSems0_none]
    have hsplit := Pipeline.arrays_of_unscopedBufs (p := p) pcfgs adm (pdats m outs) hl.win hl.arr_whole c
      ((pdats m outs p c).share_full (hd c).1) (fun b => E c b) (hd c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(hd c).2.2.1, (hd c).2.2.2]
      icases HO with ⟨%W, HO⟩; iexists W; isplitr; · ipureintro; exact fun _ _ => Or.inl trivial
      iexact HO
    isplitl [Hp]; · iexact Hp
    iexact Hrest
  hin c := by
    refine .trans ?_ (hin c); unfold Pipeline.ΦA
    iintro ⟨Hp, -, Hr⟩
    isplitl [Hr] <;> iassumption
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) pcfgs adm hl.win hl.arr_whole c (pdats m outs) ((pdats m outs p c).share_full (hd c).1)
      (fun b => E c b) (fun b => Function.update (E c) (Pipeline.arrRef (cfgs p).spec wo) (x c) b) ((pdats m outs p c).arrAt · (cfgs p).N)
      (fun w => by
        by_cases h : w = wo
        · subst h; rw [Function.update_self]; exact (hx c).symm
        · exact (((pdats m outs p c).arrAt_in w (hio w h) _).trans ((hd c).2.1 w)).trans
            (Function.update_of_ne (fun e => h (hl.win.arr_inj (Proc.devRef_injective _ e))) ..).symm)
      (fun b hb => Function.update_of_ne (fun e => hb (Finset.mem_image.mpr ⟨wo, Finset.mem_univ _, (Proc.devRef_injective _ e).symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.2.1]
    icases HO with ⟨%W, -, HO⟩; iexists W; iexact HO

def reg0 (h : Named m outs) : Pipeline.RegionSeg (pcfgs (F := F)) adm (pdats m outs) () defs₀ 𝒱₀ L lv 0 :=
  regOf m outs 0 launch0 (V3 m) 2 (outs 4 main_v31) h.h0 (body_obligation0 (E0 m))

def reg1 (h : Named m outs) : Pipeline.RegionSeg (pcfgs (F := F)) adm (pdats m outs) () defs₀ 𝒱₀ L lv 1 :=
  regOf m outs 1 launch1 (V5 m outs) 4 (outs 6 main_v46) h.h1 (body_obligation1 (E1 m outs))

def reg2 (h : Named m outs) : Pipeline.RegionSeg (pcfgs (F := F)) adm (pdats m outs) () defs₀ 𝒱₀ L lv 2 :=
  regOf m outs 2 launch2 (V6 m outs) 2 (outs 7 main_v47) h.h2 (body_obligation2 (E2 m outs))

def reg3 (h : Named m outs) : Pipeline.RegionSeg (pcfgs (F := F)) adm (pdats m outs) () defs₀ 𝒱₀ L lv 3 :=
  regOf m outs 3 launch3 (V8 m outs) 4 (outs 9 main_v62) h.h3 (body_obligation3 (E3 m outs))

def reg4 (h : Named m outs) : Pipeline.RegionSeg (pcfgs (F := F)) adm (pdats m outs) () defs₀ 𝒱₀ L lv 4 :=
  regOf m outs 4 launch4 (V9 m outs) 2 (outs 10 main_v63) h.h4 (body_obligation4 (E4 m outs))

def reg5 (h : Named m outs) : Pipeline.RegionSeg (pcfgs (F := F)) adm (pdats m outs) () defs₀ 𝒱₀ L lv 5 :=
  regOf m outs 5 launch5 (V11 m outs) 4 (outs 12 main_v78) h.h5 (body_obligation5 (E5 m outs))

def reg6 (h : Named m outs) : Pipeline.RegionSeg (pcfgs (F := F)) adm (pdats m outs) () defs₀ 𝒱₀ L lv 6 :=
  regOf m outs 6 launch6 (V13 m outs) 4 (outs 14 main_v81) h.h6 (body_obligation6 (E6 m outs))
    (hin := hin6 (E6 m outs)) (hout := hout6 (E6 m outs))

end Cert.KernelIdeal.Hand

end
-- ==== Proof.KI.Run.lean ====
import proofs.«428546_j9294309228814_1_alg».proof.Proof.KI.RunCond
import proofs.«428546_j9294309228814_1_alg».proof.Proof.KI.LaunchFacts
import proofs.«428546_j9294309228814_1_alg».proof.Proof.KI.Seg

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem run_named (ρ : Dev nD → PrngReg) (h : Named m outs) :
    θ_run defs (onTc (τ := τ) (main (F := F))) ⟨m, fun _ => 0, ρ⟩ (fun r => ∀ c : Dev nD,
      r.2.mem ((c.tc : Thread nD τ).loc main_v81) = V14 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () 𝒱₀ L lv (fun _ _ => rfl) ρ outs (pdats m outs) (fun _ => 0) (fun _ => BI.emp) _ hu₀ (fun _ c => R c) (hE0 ρ) hE7
    (reg0 m outs h) (fun _ => .rfl) (fun _ => .rfl)
    (reg1 m outs h) (fun _ => .rfl) (fun _ => .rfl)
    (reg2 m outs h) (fun _ => .rfl) (fun _ => .rfl)
    (reg3 m outs h) (fun _ => .rfl) (fun _ => .rfl)
    (reg4 m outs h) (fun _ => .rfl) (fun _ => .rfl)
    (reg5 m outs h) (fun _ => .rfl) (fun _ => .rfl)
    (reg6 m outs h) (fun _ => .rfl) (fun _ => .rfl)

end Cert.KernelIdeal.Hand

end
-- ==== Proof.KI.Outs.lean ====
import proofs.«428546_j9294309228814_1_alg».proof.Proof.KI.Pdats

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

def setOut (o : Outs (F := F)) (r₀ : Ref sig .tc) (v : (c : Dev nD) → Buf (Elt F) ((c : Thread nD τ).loc r₀)) : Outs (F := F) :=
  fun J r c => if h : r = r₀ then h ▸ v c else o J r c

theorem setOut_self (o : Outs (F := F)) (r₀ : Ref sig .tc) (v : (c : Dev nD) → Buf (Elt F) ((c : Thread nD τ).loc r₀)) (J : ℕ) (c : Dev nD) :
    setOut o r₀ v J r₀ c = v c := by
  unfold setOut; rw [dif_pos rfl]

theorem setOut_ne (o : Outs (F := F)) (r₀ : Ref sig .tc) (v : (c : Dev nD) → Buf (Elt F) ((c : Thread nD τ).loc r₀)) (J : ℕ) {r : Ref sig .tc}
    (hne : r ≠ r₀) (c : Dev nD) : setOut o r₀ v J r c = o J r c := by
  unfold setOut; rw [dif_neg hne]

def outsNone : Outs (F := F) := fun _ _ _ => fun _ => Classical.arbitrary _

/-- `o` and `o'` hold the same contents at every array outside `l`. -/
def Off (l : List (Ref sig .tc)) (o o' : Outs (F := F)) : Prop := ∀ J {r}, r ∉ l → ∀ c, o J r c = o' J r c

theorem Off.next {l : List (Ref sig .tc)} {o o' : Outs (F := F)} {r₀ : Ref sig .tc} {v : (c : Dev nD) → Buf (Elt F) ((c : Thread nD τ).loc r₀)}
    (a : Off l o (setOut o' r₀ v)) : Off (r₀ :: l) o o' :=
  fun J _ h c => (a J (List.not_mem_of_not_mem_cons h) c).trans (setOut_ne _ _ _ J (List.ne_of_not_mem_cons h) c)

section
variable {o o' : Outs (F := F)} (c : Dev nD)
theorem c5 (h : o 4 main_v31 c = o' 4 main_v31 c) : V5 m o c = V5 m o' c :=
  congrArg (fun x => StableHlo.after hostOps1 (Function.update (V3 m c) main_v31 x)) h
theorem c6 (e : V5 m o c = V5 m o' c) (h : o 6 main_v46 c = o' 6 main_v46 c) : V6 m o c = V6 m o' c :=
  congrArg₂ (fun (V : Valuation τ sig (Elt F)) x => Function.update V main_v46 x) e h
theorem c8 (e : V6 m o c = V6 m o' c) (h : o 7 main_v47 c = o' 7 main_v47 c) : V8 m o c = V8 m o' c :=
  congrArg₂ (fun V x => StableHlo.after hostOps3 (Function.update V main_v47 x)) e h
theorem c9 (e : V8 m o c = V8 m o' c) (h : o 9 main_v62 c = o' 9 main_v62 c) : V9 m o c = V9 m o' c :=
  congrArg₂ (fun (V : Valuation τ sig (Elt F)) x => Function.update V main_v62 x) e h
theorem c11 (e : V9 m o c = V9 m o' c) (h : o 10 main_v63 c = o' 10 main_v63 c) : V11 m o c = V11 m o' c :=
  congrArg₂ (fun V x => StableHlo.after hostOps5 (Function.update V main_v63 x)) e h
theorem c13 (e : V11 m o c = V11 m o' c) (h : o 12 main_v78 c = o' 12 main_v78 c) : V13 m o c = V13 m o' c :=
  congrArg₂ (fun V x => StableHlo.after hostOps6 (Function.update V main_v78 x)) e h
end

def res0 (c : Dev nD) : Buf (Elt F) ((c : Thread nD τ).loc main_v31) := (dat0 (E0 m) c).arrAt 2 cfg0.N
def outsA : Outs (F := F) := setOut (outsNone) main_v31 (res0 m)

def res1 (c : Dev nD) : Buf (Elt F) ((c : Thread nD τ).loc main_v46) := (dat1 (E1 m (outsA m)) c).arrAt 4 cfg1.N
def outsB : Outs (F := F) := setOut (outsA m) main_v46 (res1 m)

def res2 (c : Dev nD) : Buf (Elt F) ((c : Thread nD τ).loc main_v47) := (dat2 (E2 m (outsB m)) c).arrAt 2 cfg2.N
def outsC : Outs (F := F) := setOut (outsB m) main_v47 (res2 m)

def res3 (c : Dev nD) : Buf (Elt F) ((c : Thread nD τ).loc main_v62) := (dat3 (E3 m (outsC m)) c).arrAt 4 cfg3.N
def outsD : Outs (F := F) := setOut (outsC m) main_v62 (res3 m)

def res4 (c : Dev nD) : Buf (Elt F) ((c : Thread nD τ).loc main_v63) := (dat4 (E4 m (outsD m)) c).arrAt 2 cfg4.N
def outsE : Outs (F := F) := setOut (outsD m) main_v63 (res4 m)

def res5 (c : Dev nD) : Buf (Elt F) ((c : Thread nD τ).loc main_v78) := (dat5 (E5 m (outsE m)) c).arrAt 4 cfg5.N
def outsF : Outs (F := F) := setOut (outsE m) main_v78 (res5 m)

def res6 (c : Dev nD) : Buf (Elt F) ((c : Thread nD τ).loc main_v81) := (dat6 (E6 m (outsF m)) c).arrAt 4 cfg6.N
def outsG : Outs (F := F) := setOut (outsF m) main_v81 (res6 m)

abbrev outsOf : Outs (F := F) := outsG m

/-- A region's result reads the same off the full contents as off the stage that set it. -/
theorem named_outsOf : Named m (outsOf m) := by
  have aF : Off _ (outsOf m) (outsF m) := Off.next (l := []) fun _ _ _ _ => rfl
  have aE : Off _ (outsOf m) (outsE m) := aF.next
  have aD : Off _ (outsOf m) (outsD m) := aE.next
  have aC : Off _ (outsOf m) (outsC m) := aD.next
  have aB : Off _ (outsOf m) (outsB m) := aC.next
  have aA : Off _ (outsOf m) (outsA m) := aB.next
  have e {V V' : Dev nD → Valuation τ sig (Elt F)} (h : ∀ c, V c = V' c) : (fun c (b : Ref sig .tc) => V' c b) = fun c (b : Ref sig .tc) => V c b :=
    funext fun c => funext fun b => (congrFun (h c) b).symm
  exact {
    h0 := fun c => (aA _ (by decide) c).trans (setOut_self ..)
    h1 := fun c => (aB _ (by decide) c).trans <| (setOut_self ..).trans <| congrArg (fun E => (dat1 E c).arrAt 4 cfg1.N) <| e fun c =>
      c5 m c (aA _ (by decide) c)
    h2 := fun c => (aC _ (by decide) c).trans <| (setOut_self ..).trans <| congrArg (fun E => (dat2 E c).arrAt 2 cfg2.N) <| e fun c =>
      c6 m c (c5 m c (aB _ (by decide) c)) (aB _ (by decide) c)
    h3 := fun c => (aD _ (by decide) c).trans <| (setOut_self ..).trans <| congrArg (fun E => (dat3 E c).arrAt 4 cfg3.N) <| e fun c =>
      c8 m c (c6 m c (c5 m c (aC _ (by decide) c)) (aC _ (by decide) c)) (aC _ (by decide) c)
    h4 := fun c => (aE _ (by decide) c).trans <| (setOut_self ..).trans <| congrArg (fun E => (dat4 E c).arrAt 2 cfg4.N) <| e fun c =>
      c9 m c (c8 m c (c6 m c (c5 m c (aD _ (by decide) c)) (aD _ (by decide) c)) (aD _ (by decide) c)) (aD _ (by decide) c)
    h5 := fun c => (aF _ (by decide) c).trans <| (setOut_self ..).trans <| congrArg (fun E => (dat5 E c).arrAt 4 cfg5.N) <| e fun c =>
      c11 m c (c9 m c (c8 m c (c6 m c (c5 m c (aE _ (by decide) c)) (aE _ (by decide) c)) (aE _ (by decide) c)) (aE _ (by decide) c)) (aE _ (by decide) c)
    h6 := fun c => (setOut_self ..).trans <| congrArg (fun E => (dat6 E c).arrAt 4 cfg6.N) <| e fun c =>
      c13 m c (c11 m c (c9 m c (c8 m c (c6 m c (c5 m c (aF _ (by decide) c)) (aF _ (by decide) c)) (aF _ (by decide) c)) (aF _ (by decide) c)) (aF _ (by decide) c)) (aF _ (by decide) c) }

end Cert.KernelIdeal.Hand

end
-- ==== Proof.KI.Entry.lean ====
import proofs.«428546_j9294309228814_1_alg».proof.Proof.KI.Pdats

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem E0_arg0 (c : Dev nD) : E0 m c main_arg0 = m ((c : Thread nD τ).loc main_arg0) := (V3_of m c main_arg0 (by decide)).trans <| (V2_of m c main_arg0 (by decide)).trans <| (V1_of m c main_arg0 (by decide)).trans <| rfl
theorem E0_arg4 (c : Dev nD) : E0 m c main_arg4 = m ((c : Thread nD τ).loc main_arg4) := (V3_of m c main_arg4 (by decide)).trans <| (V2_of m c main_arg4 (by decide)).trans <| (V1_of m c main_arg4 (by decide)).trans <| rfl
theorem E2_arg6 (c : Dev nD) : E2 m outs c main_arg6 = m ((c : Thread nD τ).loc main_arg6) := (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl
theorem E4_arg8 (c : Dev nD) : E4 m outs c main_arg8 = m ((c : Thread nD τ).loc main_arg8) := (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans <| rfl
theorem E6_arg10 (c : Dev nD) : E6 m outs c main_arg10 = m ((c : Thread nD τ).loc main_arg10) := (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans <| rfl

theorem V4_v31 (c : Dev nD) : V4 m outs c main_v31 = outs 4 main_v31 c := by simp only [V4, Function.update_self]
theorem V6_v46 (c : Dev nD) : V6 m outs c main_v46 = outs 6 main_v46 c := by simp only [V6, Function.update_self]
theorem V7_v47 (c : Dev nD) : V7 m outs c main_v47 = outs 7 main_v47 c := by simp only [V7, Function.update_self]
theorem V9_v62 (c : Dev nD) : V9 m outs c main_v62 = outs 9 main_v62 c := by simp only [V9, Function.update_self]
theorem V10_v63 (c : Dev nD) : V10 m outs c main_v63 = outs 10 main_v63 c := by simp only [V10, Function.update_self]
theorem V12_v78 (c : Dev nD) : V12 m outs c main_v78 = outs 12 main_v78 c := by simp only [V12, Function.update_self]
theorem V14_v81 (c : Dev nD) : V14 m outs c main_v81 = outs 14 main_v81 c := by simp only [V14, Function.update_self]

theorem E1_v31 (c : Dev nD) : E1 m outs c main_v31 = outs 4 main_v31 c := (V5_of m outs c main_v31 (by decide)).trans <| V4_v31 m outs c
theorem E2_v46 (c : Dev nD) : E2 m outs c main_v46 = outs 6 main_v46 c := V6_v46 m outs c
theorem E3_v47 (c : Dev nD) : E3 m outs c main_v47 = outs 7 main_v47 c := (V8_of m outs c main_v47 (by decide)).trans <| V7_v47 m outs c
theorem E4_v62 (c : Dev nD) : E4 m outs c main_v62 = outs 9 main_v62 c := V9_v62 m outs c
theorem E5_v63 (c : Dev nD) : E5 m outs c main_v63 = outs 10 main_v63 c := (V11_of m outs c main_v63 (by decide)).trans <| V10_v63 m outs c
theorem E6_v78 (c : Dev nD) : E6 m outs c main_v78 = outs 12 main_v78 c := (V13_of m outs c main_v78 (by decide)).trans <| V12_v78 m outs c

end Cert.KernelIdeal.Hand

end
-- ==== Proof.KI.Val0.lean ====
import proofs.«428546_j9294309228814_1_alg».proof.Proof.KI.Reg0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem lhs_k0_0 (i : S2000x128.Idx) (q : dot_S2000x7_S7x128_S2000x128_1_0_0_1_n_n.contr.Idx) :
    (dot_S2000x7_S7x128_S2000x128_1_0_0_1_n_n.lhsIdx i q 0).val = (i 0).val := by
  unfold DotDims.lhsIdx
  rw [dif_neg (show ¬(0 : Fin S2000x7.rank) ∈ dot_S2000x7_S7x128_S2000x128_1_0_0_1_n_n.lhsBatch by decide), dif_pos (show (0 : Fin S2000x7.rank) ∈ dot_S2000x7_S7x128_S2000x128_1_0_0_1_n_n.lhsNonContracting by decide)]
  rfl
theorem lhs_k0_1 (i : S2000x128.Idx) (q : dot_S2000x7_S7x128_S2000x128_1_0_0_1_n_n.contr.Idx) :
    (dot_S2000x7_S7x128_S2000x128_1_0_0_1_n_n.lhsIdx i q 1).val = (q ⟨0, by decide⟩).val :=
  dot_S2000x7_S7x128_S2000x128_1_0_0_1_n_n.lhsIdx_val_of_single rfl i q
theorem rhs_k0_0 (i : S2000x128.Idx) (q : dot_S2000x7_S7x128_S2000x128_1_0_0_1_n_n.contr.Idx) :
    (dot_S2000x7_S7x128_S2000x128_1_0_0_1_n_n.rhsIdx i q 0).val = (q ⟨0, by decide⟩).val :=
  dot_S2000x7_S7x128_S2000x128_1_0_0_1_n_n.rhsIdx_val_of_single rfl i q
theorem rhs_k0_1 (i : S2000x128.Idx) (q : dot_S2000x7_S7x128_S2000x128_1_0_0_1_n_n.contr.Idx) :
    (dot_S2000x7_S7x128_S2000x128_1_0_0_1_n_n.rhsIdx i q 1).val = (i 1).val := by
  unfold DotDims.rhsIdx
  rw [dif_neg (show ¬(1 : Fin S7x128.rank) ∈ dot_S2000x7_S7x128_S2000x128_1_0_0_1_n_n.rhsBatch by decide), dif_pos (show (1 : Fin S7x128.rank) ∈ dot_S2000x7_S7x128_S2000x128_1_0_0_1_n_n.rhsNonContracting by decide)]
  rfl

theorem k0_pay1_apply (x : FVec Ideal S2000x7 .f32) (w : FVec Ideal S7x128 .f32) (p : Fin 2000) (q : Fin 128) :
    k0_pay1 (F := Ideal) x w (ValueIdx.ix2 p q) = ∑ k : Fin 7, x (ValueIdx.ix2 p k) * w (ValueIdx.ix2 k q) := by
  unfold k0_pay1
  show FloatOps.matmul dot_S2000x7_S7x128_S2000x128_1_0_0_1_n_n none (truncf .bf16 x bitsLt_bf16_f32)
      (truncf .bf16 w bitsLt_bf16_f32) (constant S2000x128 .f32 0x00000000#32) (ValueIdx.ix2 p q) = _
  rw [Ideal.matmul_constant_zero_apply, ← Equiv.sum_comp (ValueIdx.contrEquiv1 dot_S2000x7_S7x128_S2000x128_1_0_0_1_n_n 7 rfl rfl).symm]
  refine Finset.sum_congr rfl fun k _ => ?_
  have hk := ValueIdx.contrEquiv1_symm_val dot_S2000x7_S7x128_S2000x128_1_0_0_1_n_n 7 rfl rfl k
  have el : dot_S2000x7_S7x128_S2000x128_1_0_0_1_n_n.lhsIdx (ValueIdx.ix2 p q) ((ValueIdx.contrEquiv1 dot_S2000x7_S7x128_S2000x128_1_0_0_1_n_n 7 rfl rfl).symm k) = ValueIdx.ix2 p k := funext fun a => Fin.ext (by
    match a with
    | ⟨0, _⟩ => exact lhs_k0_0 _ _
    | ⟨1, _⟩ => exact (lhs_k0_1 _ _).trans hk)
  have er : dot_S2000x7_S7x128_S2000x128_1_0_0_1_n_n.rhsIdx (ValueIdx.ix2 p q) ((ValueIdx.contrEquiv1 dot_S2000x7_S7x128_S2000x128_1_0_0_1_n_n 7 rfl rfl).symm k) = ValueIdx.ix2 k q := funext fun a => Fin.ext (by
    match a with
    | ⟨0, _⟩ => exact (rhs_k0_0 _ _).trans hk
    | ⟨1, _⟩ => exact rhs_k0_1 _ _)
  rw [el, er, ValueIdx.truncf_apply, ValueIdx.truncf_apply]

theorem hz0 : (![0, 0] : Fin 2 → Nat) = fun _ => 0 := funext fun a => by fin_cases a <;> rfl

def prod0 (X : FVec Ideal S50000x7 .f32) (W : FVec Ideal S7x128 .f32) : FVec Ideal S50000x128 .f32 := fun i =>
  ∑ k : Fin 7, X (ValueIdx.ix2 (⟨(i 0).val, (i 0).isLt⟩ : Fin 50000) k) * W (ValueIdx.ix2 k (⟨(i 1).val, (i 1).isLt⟩ : Fin 128))

theorem prod0_apply (X : FVec Ideal S50000x7 .f32) (W : FVec Ideal S7x128 .f32) (r : Fin 50000) (q : Fin 128) :
    prod0 X W (ValueIdx.ix2 r q) = ∑ k : Fin 7, X (ValueIdx.ix2 r k) * W (ValueIdx.ix2 k q) := rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem iblk0_0_apply (c : Dev nD) (t : Fin cfg0.N) (p : Fin 2000) (k : Fin 7) (r : Fin 50000) (hr : r.val = 2000 * t.val + p.val) :
    (iblk0 V c 0 t : FVec Ideal S2000x7 .f32) (ValueIdx.ix2 p k) = (V c (Pipeline.arrRef spec0 0) : FVec Ideal S50000x7 .f32) (ValueIdx.ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 7 + 1 * k.val = k.val; rw [e1]; omega

theorem iblk0_1_apply (c : Dev nD) (t : Fin cfg0.N) (k : Fin 7) (q : Fin 128) :
    (iblk0 V c 1 t : FVec Ideal S7x128 .f32) (ValueIdx.ix2 k q) = (V c (Pipeline.arrRef spec0 1) : FVec Ideal S7x128 .f32) (ValueIdx.ix2 k q) := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 7 + 1 * k.val = k.val; rw [e0]; omega
  | ⟨1, _⟩ => show win0_1.index t (1 : Fin 2) * 128 + 1 * q.val = q.val; rw [e1]; omega

theorem flushed0_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S2000x7) hz0, View.ld_unit_zero (S := S7x128) hz0]
  obtain ⟨-, -, -, -, e0, e1⟩ := idx_facts0 t
  have hN : cfg0.N = 25 := N_0
  have ht : t.val < cfg0.N := t.isLt
  funext y
  obtain ⟨p, q, rfl⟩ : ∃ (p : Fin 2000) (q : Fin 128), y = ValueIdx.ix2 p q := ⟨y 0, y 1, ValueIdx.eq_ix2 y⟩
  have hp : p.val < 2000 := p.isLt
  have hrow : 2000 * t.val + p.val < 50000 := by omega
  refine (k0_pay1_apply _ _ p q).trans ?_
  rw [View.read_apply]
  show _ = prod0 _ _ (((cfg0.win 2).blk t).view.emb (ValueIdx.ix2 p q))
  have hemb : ((cfg0.win 2).blk t).view.emb (ValueIdx.ix2 p q) = ValueIdx.ix2 (⟨2000 * t.val + p.val, hrow⟩ : Fin 50000) q := by
    funext a; apply Fin.ext
    match a with
    | ⟨0, _⟩ => show win0_2.index t (0 : Fin 2) * 2000 + 1 * p.val = 2000 * t.val + p.val; rw [e0]; omega
    | ⟨1, _⟩ => show win0_2.index t (1 : Fin 2) * 128 + 1 * q.val = q.val; rw [e1]; omega
  rw [hemb, prod0_apply]
  exact Finset.sum_congr rfl fun k _ =>
    congrArg₂ (· * ·) (iblk0_0_apply V c t p k ⟨2000 * t.val + p.val, hrow⟩ rfl) (iblk0_1_apply V c t k q)

theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e0, e1⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 128 ≤ (i 1).val ∧ (i 1).val < win0_2.index t (1 : Fin 2) * 128 + 128; rw [e1]; omega

theorem final0 (c : Dev nD) :
    (dat0 (F := Ideal) V c).arrAt 2 cfg0.N = prod0 (V c (Pipeline.arrRef spec0 0)) (V c (Pipeline.arrRef spec0 1)) :=
  (dat0 V c).arrAt_eq_of_cover 2 _ (fun t _ => flushed0_eq V c t) cover0

end Cert.KernelIdeal.Hand

end
-- ==== Proof.KI.Val1.lean ====
import proofs.«428546_j9294309228814_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem zero_offsets1 : (![0, 0] : Fin 2 → Nat) = fun _ => 0 := funext fun a => by fin_cases a <;> rfl

theorem broadcastTo_col1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay1_apply (xa xh : Vec Ideal S2000x128 .f32) (xd : Vec Ideal S2000x1 .f32) (xb : Vec Ideal S1x128 .f32) (p : Fin 2000) (q : Fin 128) :
    k1_pay1 xa xh xd xb (ix2 p q) = max (xa (ix2 p q) + xh (ix2 p q) * xd (ix2 p (0 : Fin 1)) + xb (ix2 (0 : Fin 1) q)) 0 := by
  unfold k1_pay1
  simp only [shapeCast_self]
  rw [maximumf_apply, addf_apply, addf_apply, mulf_apply, broadcast_apply]
  rw [broadcastTo_col1_apply, broadcastTo_1b_ab_apply]
  show max _ (Ideal.ofBits .f32 0x00000000#32) = _
  rw [Ideal.ofBits_zero_f32]

variable (V : (c : Dev nD) → (b : Ref sig .tc) → Buf (Elt Ideal) ((c : Thread nD τ).loc b))

def G1 (a0 a1 : S50000x128.Idx → Elt Ideal .f32) (a2 : S50000x1.Idx → Elt Ideal .f32) (a3 : S1x128.Idx → Elt Ideal .f32) :
    S50000x128.Idx → Elt Ideal .f32 :=
  fun k => max (a1 k + a0 k * a2 (ix2 (n0 := 50000) (k 0) (0 : Fin 1)) + a3 (ix2 (0 : Fin 1) (n1 := 128) (k 1))) 0

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (p : Fin 2000) (q : Fin 128) (i : Fin 50000) (hi : i.val = t.val * 2000 + p.val) :
    (iblk1 V c 0 t : Vec Ideal S2000x128 .f32) (ix2 p q) = (V c (Pipeline.arrRef spec1 0) : S50000x128.Idx → Elt Ideal .f32) (ix2 i q) := by
  obtain ⟨e0, e1, -⟩ := idx_facts1 t
  unfold iblk1
  rw [View.read_apply]
  show V c _ _ = V c _ _
  congr 1; funext a; apply Fin.ext
  match a with
  | ⟨0, _⟩ => show win1_0.index t (0 : Fin 2) * 2000 + 1 * p.val = i.val; omega
  | ⟨1, _⟩ => show win1_0.index t (1 : Fin 2) * 128 + 1 * q.val = q.val; omega

theorem iblk1_1_apply (c : Dev nD) (t : Fin cfg1.N) (p : Fin 2000) (q : Fin 128) (i : Fin 50000) (hi : i.val = t.val * 2000 + p.val) :
    (iblk1 V c 1 t : Vec Ideal S2000x128 .f32) (ix2 p q) = (V c (Pipeline.arrRef spec1 1) : S50000x128.Idx → Elt Ideal .f32) (ix2 i q) := by
  obtain ⟨-, -, e0, e1, -⟩ := idx_facts1 t
  unfold iblk1
  rw [View.read_apply]
  show V c _ _ = V c _ _
  congr 1; funext a; apply Fin.ext
  match a with
  | ⟨0, _⟩ => show win1_1.index t (0 : Fin 2) * 2000 + 1 * p.val = i.val; omega
  | ⟨1, _⟩ => show win1_1.index t (1 : Fin 2) * 128 + 1 * q.val = q.val; omega

theorem iblk1_2_apply (c : Dev nD) (t : Fin cfg1.N) (p : Fin 2000) (i : Fin 50000) (hi : i.val = t.val * 2000 + p.val) :
    (iblk1 V c 2 t : Vec Ideal S2000x1 .f32) (ix2 p (0 : Fin 1)) = (V c (Pipeline.arrRef spec1 2) : S50000x1.Idx → Elt Ideal .f32) (ix2 i (0 : Fin 1)) := by
  obtain ⟨-, -, -, -, e0, e1, -⟩ := idx_facts1 t
  unfold iblk1
  rw [View.read_apply]
  show V c _ _ = V c _ _
  congr 1; funext a; apply Fin.ext
  match a with
  | ⟨0, _⟩ => show win1_2.index t (0 : Fin 2) * 2000 + 1 * p.val = i.val; omega
  | ⟨1, _⟩ => show win1_2.index t (1 : Fin 2) * 1 + 1 * 0 = 0; omega

theorem iblk1_3_apply (c : Dev nD) (t : Fin cfg1.N) (q : Fin 128) :
    (iblk1 V c 3 t : Vec Ideal S1x128 .f32) (ix2 (0 : Fin 1) q) = (V c (Pipeline.arrRef spec1 3) : S1x128.Idx → Elt Ideal .f32) (ix2 (0 : Fin 1) q) := by
  obtain ⟨-, -, -, -, -, -, e0, e1, -⟩ := idx_facts1 t
  unfold iblk1
  rw [View.read_apply]
  show V c _ _ = V c _ _
  congr 1; funext a; apply Fin.ext
  match a with
  | ⟨0, _⟩ => show win1_3.index t (0 : Fin 2) * 1 + 1 * 0 = 0; omega
  | ⟨1, _⟩ => show win1_3.index t (1 : Fin 2) * 128 + 1 * q.val = q.val; omega

theorem combine1_at (c : Dev nD) (t : Fin cfg1.N) (p : Fin 2000) (q : Fin 128) (i : Fin 50000) (hi : i.val = t.val * 2000 + p.val) :
    k1_pay1 (iblk1 V c 1 t) (iblk1 V c 0 t) (iblk1 V c 2 t) (iblk1 V c 3 t) (ix2 p q)
      = G1 (V c (Pipeline.arrRef spec1 0)) (V c (Pipeline.arrRef spec1 1)) (V c (Pipeline.arrRef spec1 2)) (V c (Pipeline.arrRef spec1 3)) (ix2 i q) := by
  rw [pay1_apply, iblk1_0_apply V c t p q i hi, iblk1_1_apply V c t p q i hi, iblk1_2_apply V c t p i hi, iblk1_3_apply V c t q]
  rfl

theorem flushed1_4_eq (c : Dev nD) (t : Fin cfg1.N) :
    (dat1 V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets1]
  simp only [View.ld_unit_zero (S := S2000x128) zero_offsets1, View.ld_unit_zero (S := S2000x1) zero_offsets1,
    View.ld_unit_zero (S := S1x128) zero_offsets1]
  funext y
  obtain ⟨-, -, -, -, -, -, -, -, e0, e1⟩ := idx_facts1 t
  have hy0 : (y 0).val < 2000 := (y 0).isLt
  have hy1 : (y 1).val < 128 := (y 1).isLt
  have ht : t.val < 25 := Nat.lt_of_lt_of_eq t.isLt N_1
  have hrow : t.val * 2000 + (y 0).val < 50000 := by omega
  have hx : (cfg1.win 4).xinj (grid1.coords t) y = ix2 (⟨(y 0).val, hy0⟩ : Fin 2000) (⟨(y 1).val, hy1⟩ : Fin 128) :=
    funext fun a => match a with | ⟨0, _⟩ => rfl | ⟨1, _⟩ => rfl
  have hk : ((cfg1.win 4).blk t).view.emb y = ix2 (⟨t.val * 2000 + (y 0).val, hrow⟩ : Fin 50000) (⟨(y 1).val, hy1⟩ : Fin 128) := by
    funext a; apply Fin.ext
    match a with
    | ⟨0, _⟩ => show win1_4.index t (0 : Fin 2) * 2000 + 1 * (y 0).val = t.val * 2000 + (y 0).val; omega
    | ⟨1, _⟩ => show win1_4.index t (1 : Fin 2) * 128 + 1 * (y 1).val = (y 1).val; omega
  show k1_pay1 (iblk1 V c 1 t) (iblk1 V c 0 t) (iblk1 V c 2 t) (iblk1 V c 3 t) ((cfg1.win 4).xinj (grid1.coords t) y)
    = G1 (V c (Pipeline.arrRef spec1 0)) (V c (Pipeline.arrRef spec1 1)) (V c (Pipeline.arrRef spec1 2)) (V c (Pipeline.arrRef spec1 3))
        (((cfg1.win 4).blk t).view.emb y)
  rw [hx, hk]
  exact combine1_at V c t ⟨(y 0).val, hy0⟩ ⟨(y 1).val, hy1⟩ ⟨t.val * 2000 + (y 0).val, hrow⟩ rfl

theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

theorem cover1_out (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, e0, e1⟩ := idx_facts1 t
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

theorem final1_4 (c : Dev nD) : (dat1 V c).arrAt 4 cfg1.N
    = G1 (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4_eq V c t) cover1_out

theorem G1_apply (a0 a1 : S50000x128.Idx → Elt Ideal .f32) (a2 : S50000x1.Idx → Elt Ideal .f32) (a3 : S1x128.Idx → Elt Ideal .f32)
    (i : Fin 50000) (j : Fin 128) :
    G1 a0 a1 a2 a3 (ix2 i j) = max (a1 (ix2 i j) + a0 (ix2 i j) * a2 (ix2 i (0 : Fin 1)) + a3 (ix2 (0 : Fin 1) j)) 0 := rfl

end Cert.KernelIdeal.Hand

end
-- ==== Proof.KI.Val2.lean ====
import proofs.«428546_j9294309228814_1_alg».proof.Proof.KI.Reg2
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem lhs_k2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem k2_pay1_apply (x : FVec Ideal S2000x128 .f32) (w : FVec Ideal S128x128 .f32) (p : Fin 2000) (q : Fin 128) :
    k2_pay1 (F := Ideal) x w (ValueIdx.ix2 p q) = ∑ k : Fin 128, x (ValueIdx.ix2 p k) * w (ValueIdx.ix2 k q) := by
  unfold k2_pay1
  show FloatOps.matmul dot_S2000x128_S128x128_S2000x128_1_0_0_1_n_n none (truncf .bf16 (shapeCast S2000x128 x shapeCasts_S2000x128_S2000x128) bitsLt_bf16_f32)
      (truncf .bf16 w bitsLt_bf16_f32) (constant S2000x128 .f32 0x00000000#32) (ValueIdx.ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact lhs_k2_0 _ _
    | ⟨1, _⟩ => exact (lhs_k2_1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (rhs_k2_0 _ _).trans hk
    | ⟨1, _⟩ => exact rhs_k2_1 _ _)
  rw [el, er, ValueIdx.truncf_apply, ValueIdx.truncf_apply, shapeCast_self]

theorem hz2 : (![0, 0] : Fin 2 → Nat) = fun _ => 0 := funext fun a => by fin_cases a <;> rfl

def prod2 (X : FVec Ideal S50000x128 .f32) (W : FVec Ideal S128x128 .f32) : FVec Ideal S50000x128 .f32 := fun i =>
  ∑ k : Fin 128, X (ValueIdx.ix2 (⟨(i 0).val, (i 0).isLt⟩ : Fin 50000) k) * W (ValueIdx.ix2 k (⟨(i 1).val, (i 1).isLt⟩ : Fin 128))

theorem prod2_apply (X : FVec Ideal S50000x128 .f32) (W : FVec Ideal S128x128 .f32) (r : Fin 50000) (q : Fin 128) :
    prod2 X W (ValueIdx.ix2 r q) = ∑ k : Fin 128, X (ValueIdx.ix2 r k) * W (ValueIdx.ix2 k q) := rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

theorem iblk2_0_apply (c : Dev nD) (t : Fin cfg2.N) (p : Fin 2000) (k : Fin 128) (r : Fin 50000) (hr : r.val = 2000 * t.val + p.val) :
    (iblk2 V c 0 t : FVec Ideal S2000x128 .f32) (ValueIdx.ix2 p k) = (V c (Pipeline.arrRef spec2 0) : FVec Ideal S50000x128 .f32) (ValueIdx.ix2 r k) := by
  obtain ⟨e0, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

theorem iblk2_1_apply (c : Dev nD) (t : Fin cfg2.N) (k : Fin 128) (q : Fin 128) :
    (iblk2 V c 1 t : FVec Ideal S128x128 .f32) (ValueIdx.ix2 k q) = (V c (Pipeline.arrRef spec2 1) : FVec Ideal S128x128 .f32) (ValueIdx.ix2 k q) := by
  obtain ⟨-, -, e0, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

theorem flushed2_eq (c : Dev nD) (t : Fin cfg2.N) :
    (dat2 (F := Ideal) V c).flushed 2 t
      = ((cfg2.win 2).blk t).view.read (Elt Ideal) (prod2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  obtain ⟨-, -, -, -, e0, e1⟩ := idx_facts2 t
  have hN : cfg2.N = 25 := N_2
  have ht : t.val < cfg2.N := t.isLt
  funext y
  obtain ⟨p, q, rfl⟩ : ∃ (p : Fin 2000) (q : Fin 128), y = ValueIdx.ix2 p q := ⟨y 0, y 1, ValueIdx.eq_ix2 y⟩
  have hp : p.val < 2000 := p.isLt
  have hrow : 2000 * t.val + p.val < 50000 := by omega
  refine (k2_pay1_apply _ _ p q).trans ?_
  rw [View.read_apply]
  show _ = prod2 _ _ (((cfg2.win 2).blk t).view.emb (ValueIdx.ix2 p q))
  have hemb : ((cfg2.win 2).blk t).view.emb (ValueIdx.ix2 p q) = ValueIdx.ix2 (⟨2000 * t.val + p.val, hrow⟩ : Fin 50000) q := by
    funext a; apply Fin.ext
    match a with
    | ⟨0, _⟩ => show win2_2.index t (0 : Fin 2) * 2000 + 1 * p.val = 2000 * t.val + p.val; rw [e0]; omega
    | ⟨1, _⟩ => show win2_2.index t (1 : Fin 2) * 128 + 1 * q.val = q.val; rw [e1]; omega
  rw [hemb, prod2_apply]
  exact Finset.sum_congr rfl fun k _ =>
    congrArg₂ (· * ·) (iblk2_0_apply V c t p k ⟨2000 * t.val + p.val, hrow⟩ rfl) (iblk2_1_apply V c t k q)

theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v47).slice (win2_2.rect t)).set ↔ _
  rw [View.set_slice_whole, Rect.mem_set_unit]
  exact Iff.rfl

theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e0, e1⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 128 ≤ (i 1).val ∧ (i 1).val < win2_2.index t (1 : Fin 2) * 128 + 128; rw [e1]; omega

theorem final2 (c : Dev nD) :
    (dat2 (F := Ideal) V c).arrAt 2 cfg2.N = prod2 (V c (Pipeline.arrRef spec2 0)) (V c (Pipeline.arrRef spec2 1)) :=
  (dat2 V c).arrAt_eq_of_cover 2 _ (fun t _ => flushed2_eq V c t) cover2

end Cert.KernelIdeal.Hand

end
-- ==== Proof.KI.Val3.lean ====
import proofs.«428546_j9294309228814_1_alg».proof.Proof.KI.Reg3
import proofs.«428546_j9294309228814_1_alg».proof.Proof.KI.Val1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (p : Fin 2000) (q : Fin 128) (i : Fin 50000) (hi : i.val = t.val * 2000 + p.val) :
    (iblk3 V c 0 t : Vec Ideal S2000x128 .f32) (ix2 p q) = (V c (Pipeline.arrRef spec3 0) : S50000x128.Idx → Elt Ideal .f32) (ix2 i q) := by
  obtain ⟨e0, e1, -⟩ := idx_facts3 t
  unfold iblk3
  rw [View.read_apply]
  show V c _ _ = V c _ _
  congr 1; funext a; apply Fin.ext
  match a with
  | ⟨0, _⟩ => show win3_0.index t (0 : Fin 2) * 2000 + 1 * p.val = i.val; omega
  | ⟨1, _⟩ => show win3_0.index t (1 : Fin 2) * 128 + 1 * q.val = q.val; omega

theorem iblk3_1_apply (c : Dev nD) (t : Fin cfg3.N) (p : Fin 2000) (q : Fin 128) (i : Fin 50000) (hi : i.val = t.val * 2000 + p.val) :
    (iblk3 V c 1 t : Vec Ideal S2000x128 .f32) (ix2 p q) = (V c (Pipeline.arrRef spec3 1) : S50000x128.Idx → Elt Ideal .f32) (ix2 i q) := by
  obtain ⟨-, -, e0, e1, -⟩ := idx_facts3 t
  unfold iblk3
  rw [View.read_apply]
  show V c _ _ = V c _ _
  congr 1; funext a; apply Fin.ext
  match a with
  | ⟨0, _⟩ => show win3_1.index t (0 : Fin 2) * 2000 + 1 * p.val = i.val; omega
  | ⟨1, _⟩ => show win3_1.index t (1 : Fin 2) * 128 + 1 * q.val = q.val; omega

theorem iblk3_2_apply (c : Dev nD) (t : Fin cfg3.N) (p : Fin 2000) (i : Fin 50000) (hi : i.val = t.val * 2000 + p.val) :
    (iblk3 V c 2 t : Vec Ideal S2000x1 .f32) (ix2 p (0 : Fin 1)) = (V c (Pipeline.arrRef spec3 2) : S50000x1.Idx → Elt Ideal .f32) (ix2 i (0 : Fin 1)) := by
  obtain ⟨-, -, -, -, e0, e1, -⟩ := idx_facts3 t
  unfold iblk3
  rw [View.read_apply]
  show V c _ _ = V c _ _
  congr 1; funext a; apply Fin.ext
  match a with
  | ⟨0, _⟩ => show win3_2.index t (0 : Fin 2) * 2000 + 1 * p.val = i.val; omega
  | ⟨1, _⟩ => show win3_2.index t (1 : Fin 2) * 1 + 1 * 0 = 0; omega

theorem iblk3_3_apply (c : Dev nD) (t : Fin cfg3.N) (q : Fin 128) :
    (iblk3 V c 3 t : Vec Ideal S1x128 .f32) (ix2 (0 : Fin 1) q) = (V c (Pipeline.arrRef spec3 3) : S1x128.Idx → Elt Ideal .f32) (ix2 (0 : Fin 1) q) := by
  obtain ⟨-, -, -, -, -, -, e0, e1, -⟩ := idx_facts3 t
  unfold iblk3
  rw [View.read_apply]
  show V c _ _ = V c _ _
  congr 1; funext a; apply Fin.ext
  match a with
  | ⟨0, _⟩ => show win3_3.index t (0 : Fin 2) * 1 + 1 * 0 = 0; omega
  | ⟨1, _⟩ => show win3_3.index t (1 : Fin 2) * 128 + 1 * q.val = q.val; omega

theorem combine3_at (c : Dev nD) (t : Fin cfg3.N) (p : Fin 2000) (q : Fin 128) (i : Fin 50000) (hi : i.val = t.val * 2000 + p.val) :
    k1_pay1 (iblk3 V c 1 t) (iblk3 V c 0 t) (iblk3 V c 2 t) (iblk3 V c 3 t) (ix2 p q)
      = G1 (V c (Pipeline.arrRef spec3 0)) (V c (Pipeline.arrRef spec3 1)) (V c (Pipeline.arrRef spec3 2)) (V c (Pipeline.arrRef spec3 3)) (ix2 i q) := by
  rw [pay1_apply, iblk3_0_apply V c t p q i hi, iblk3_1_apply V c t p q i hi, iblk3_2_apply V c t p i hi, iblk3_3_apply V c t q]
  rfl

theorem flushed3_4_eq (c : Dev nD) (t : Fin cfg3.N) :
    (dat3 V c).flushed 4 t = ((cfg3.win 4).blk t).view.read (Elt Ideal)
      (G1 (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out1_4
  rw [View.canon_unit_zero zero_offsets1]
  simp only [View.ld_unit_zero (S := S2000x128) zero_offsets1, View.ld_unit_zero (S := S2000x1) zero_offsets1,
    View.ld_unit_zero (S := S1x128) zero_offsets1]
  funext y
  obtain ⟨-, -, -, -, -, -, -, -, e0, e1⟩ := idx_facts3 t
  have hy0 : (y 0).val < 2000 := (y 0).isLt
  have hy1 : (y 1).val < 128 := (y 1).isLt
  have ht : t.val < 25 := Nat.lt_of_lt_of_eq t.isLt N_3
  have hrow : t.val * 2000 + (y 0).val < 50000 := by omega
  have hx : (cfg3.win 4).xinj (grid3.coords t) y = ix2 (⟨(y 0).val, hy0⟩ : Fin 2000) (⟨(y 1).val, hy1⟩ : Fin 128) :=
    funext fun a => match a with | ⟨0, _⟩ => rfl | ⟨1, _⟩ => rfl
  have hk : ((cfg3.win 4).blk t).view.emb y = ix2 (⟨t.val * 2000 + (y 0).val, hrow⟩ : Fin 50000) (⟨(y 1).val, hy1⟩ : Fin 128) := by
    funext a; apply Fin.ext
    match a with
    | ⟨0, _⟩ => show win3_4.index t (0 : Fin 2) * 2000 + 1 * (y 0).val = t.val * 2000 + (y 0).val; omega
    | ⟨1, _⟩ => show win3_4.index t (1 : Fin 2) * 128 + 1 * (y 1).val = (y 1).val; omega
  show k1_pay1 (iblk3 V c 1 t) (iblk3 V c 0 t) (iblk3 V c 2 t) (iblk3 V c 3 t) ((cfg3.win 4).xinj (grid3.coords t) y)
    = G1 (V c (Pipeline.arrRef spec3 0)) (V c (Pipeline.arrRef spec3 1)) (V c (Pipeline.arrRef spec3 2)) (V c (Pipeline.arrRef spec3 3))
        (((cfg3.win 4).blk t).view.emb y)
  rw [hx, hk]
  exact combine3_at V c t ⟨(y 0).val, hy0⟩ ⟨(y 1).val, hy1⟩ ⟨t.val * 2000 + (y 0).val, hrow⟩ rfl

theorem mem_blk3_4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v62).slice (win3_4.rect t)).set ↔ _
  rw [View.set_slice_whole, Rect.mem_set_unit]
  exact Iff.rfl

theorem cover3_out (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, e0, e1⟩ := idx_facts3 t
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

theorem final3_4 (c : Dev nD) : (dat3 V c).arrAt 4 cfg3.N
    = G1 (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_4_eq V c t) cover3_out

end Cert.KernelIdeal.Hand

end
-- ==== Proof.KI.Val4.lean ====
import proofs.«428546_j9294309228814_1_alg».proof.Proof.KI.Reg4
import proofs.«428546_j9294309228814_1_alg».proof.Proof.KI.Val2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

theorem iblk4_0_apply (c : Dev nD) (t : Fin cfg4.N) (p : Fin 2000) (k : Fin 128) (r : Fin 50000) (hr : r.val = 2000 * t.val + p.val) :
    (iblk4 V c 0 t : FVec Ideal S2000x128 .f32) (ValueIdx.ix2 p k) = (V c (Pipeline.arrRef spec4 0) : FVec Ideal S50000x128 .f32) (ValueIdx.ix2 r k) := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 128 + 1 * k.val = k.val; rw [e1]; omega

theorem iblk4_1_apply (c : Dev nD) (t : Fin cfg4.N) (k : Fin 128) (q : Fin 128) :
    (iblk4 V c 1 t : FVec Ideal S128x128 .f32) (ValueIdx.ix2 k q) = (V c (Pipeline.arrRef spec4 1) : FVec Ideal S128x128 .f32) (ValueIdx.ix2 k q) := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

theorem flushed4_eq (c : Dev nD) (t : Fin cfg4.N) :
    (dat4 (F := Ideal) V c).flushed 2 t
      = ((cfg4.win 2).blk t).view.read (Elt Ideal) (prod2 (V c (Pipeline.arrRef spec4 0)) (V c (Pipeline.arrRef spec4 1))) := by
  show (cfg4.win 2).cut (grid4.coords t) ((dat4 V c).after 2 t) = _
  rw [after4_2]
  unfold out2_2
  rw [View.canon_unit_zero hz2]
  simp only [View.ld_unit_zero (S := S2000x128) hz2, View.ld_unit_zero (S := S128x128) hz2]
  obtain ⟨-, -, -, -, e0, e1⟩ := idx_facts4 t
  have hN : cfg4.N = 25 := N_4
  have ht : t.val < cfg4.N := t.isLt
  funext y
  obtain ⟨p, q, rfl⟩ : ∃ (p : Fin 2000) (q : Fin 128), y = ValueIdx.ix2 p q := ⟨y 0, y 1, ValueIdx.eq_ix2 y⟩
  have hp : p.val < 2000 := p.isLt
  have hrow : 2000 * t.val + p.val < 50000 := by omega
  refine (k2_pay1_apply _ _ p q).trans ?_
  rw [View.read_apply]
  show _ = prod2 _ _ (((cfg4.win 2).blk t).view.emb (ValueIdx.ix2 p q))
  have hemb : ((cfg4.win 2).blk t).view.emb (ValueIdx.ix2 p q) = ValueIdx.ix2 (⟨2000 * t.val + p.val, hrow⟩ : Fin 50000) q := by
    funext a; apply Fin.ext
    match a with
    | ⟨0, _⟩ => show win4_2.index t (0 : Fin 2) * 2000 + 1 * p.val = 2000 * t.val + p.val; rw [e0]; omega
    | ⟨1, _⟩ => show win4_2.index t (1 : Fin 2) * 128 + 1 * q.val = q.val; rw [e1]; omega
  rw [hemb, prod2_apply]
  exact Finset.sum_congr rfl fun k _ =>
    congrArg₂ (· * ·) (iblk4_0_apply V c t p k ⟨2000 * t.val + p.val, hrow⟩ rfl) (iblk4_1_apply V c t k q)

theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v63).slice (win4_2.rect t)).set ↔ _
  rw [View.set_slice_whole, Rect.mem_set_unit]
  exact Iff.rfl

theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, e0, e1⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; rw [e0, ht]; omega
  | ⟨1, _⟩ => show win4_2.index t (1 : Fin 2) * 128 ≤ (i 1).val ∧ (i 1).val < win4_2.index t (1 : Fin 2) * 128 + 128; rw [e1]; omega

theorem final4 (c : Dev nD) :
    (dat4 (F := Ideal) V c).arrAt 2 cfg4.N = prod2 (V c (Pipeline.arrRef spec4 0)) (V c (Pipeline.arrRef spec4 1)) :=
  (dat4 V c).arrAt_eq_of_cover 2 _ (fun t _ => flushed4_eq V c t) cover4

end Cert.KernelIdeal.Hand

end
-- ==== Proof.KI.Val5.lean ====
import proofs.«428546_j9294309228814_1_alg».proof.Proof.KI.Reg5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem zero_offsets5 : (![0, 0] : Fin 2 → Nat) = fun _ => 0 := funext fun a => by fin_cases a <;> rfl

theorem broadcastTo_col5_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay5_apply (xa xh : Vec Ideal S2000x128 .f32) (xd : Vec Ideal S2000x1 .f32) (xb : Vec Ideal S1x128 .f32) (p : Fin 2000) (q : Fin 128) :
    k5_pay1 xa xh xd xb (ix2 p q) = xa (ix2 p q) + xh (ix2 p q) * xd (ix2 p (0 : Fin 1)) + xb (ix2 (0 : Fin 1) q) := by
  unfold k5_pay1
  simp only [shapeCast_self]
  rw [addf_apply, addf_apply, mulf_apply]
  rw [broadcastTo_col5_apply, broadcastTo_1b_ab_apply]

variable (V : (c : Dev nD) → (b : Ref sig .tc) → Buf (Elt Ideal) ((c : Thread nD τ).loc b))

def G5 (a0 a1 : S50000x128.Idx → Elt Ideal .f32) (a2 : S50000x1.Idx → Elt Ideal .f32) (a3 : S1x128.Idx → Elt Ideal .f32) :
    S50000x128.Idx → Elt Ideal .f32 :=
  fun k => a1 k + a0 k * a2 (ix2 (n0 := 50000) (k 0) (0 : Fin 1)) + a3 (ix2 (0 : Fin 1) (n1 := 128) (k 1))

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem iblk5_0_apply (c : Dev nD) (t : Fin cfg5.N) (p : Fin 2000) (q : Fin 128) (i : Fin 50000) (hi : i.val = t.val * 2000 + p.val) :
    (iblk5 V c 0 t : Vec Ideal S2000x128 .f32) (ix2 p q) = (V c (Pipeline.arrRef spec5 0) : S50000x128.Idx → Elt Ideal .f32) (ix2 i q) := by
  obtain ⟨e0, e1, -⟩ := idx_facts5 t
  unfold iblk5
  rw [View.read_apply]
  show V c _ _ = V c _ _
  congr 1; funext a; apply Fin.ext
  match a with
  | ⟨0, _⟩ => show win5_0.index t (0 : Fin 2) * 2000 + 1 * p.val = i.val; omega
  | ⟨1, _⟩ => show win5_0.index t (1 : Fin 2) * 128 + 1 * q.val = q.val; omega

theorem iblk5_1_apply (c : Dev nD) (t : Fin cfg5.N) (p : Fin 2000) (q : Fin 128) (i : Fin 50000) (hi : i.val = t.val * 2000 + p.val) :
    (iblk5 V c 1 t : Vec Ideal S2000x128 .f32) (ix2 p q) = (V c (Pipeline.arrRef spec5 1) : S50000x128.Idx → Elt Ideal .f32) (ix2 i q) := by
  obtain ⟨-, -, e0, e1, -⟩ := idx_facts5 t
  unfold iblk5
  rw [View.read_apply]
  show V c _ _ = V c _ _
  congr 1; funext a; apply Fin.ext
  match a with
  | ⟨0, _⟩ => show win5_1.index t (0 : Fin 2) * 2000 + 1 * p.val = i.val; omega
  | ⟨1, _⟩ => show win5_1.index t (1 : Fin 2) * 128 + 1 * q.val = q.val; omega

theorem iblk5_2_apply (c : Dev nD) (t : Fin cfg5.N) (p : Fin 2000) (i : Fin 50000) (hi : i.val = t.val * 2000 + p.val) :
    (iblk5 V c 2 t : Vec Ideal S2000x1 .f32) (ix2 p (0 : Fin 1)) = (V c (Pipeline.arrRef spec5 2) : S50000x1.Idx → Elt Ideal .f32) (ix2 i (0 : Fin 1)) := by
  obtain ⟨-, -, -, -, e0, e1, -⟩ := idx_facts5 t
  unfold iblk5
  rw [View.read_apply]
  show V c _ _ = V c _ _
  congr 1; funext a; apply Fin.ext
  match a with
  | ⟨0, _⟩ => show win5_2.index t (0 : Fin 2) * 2000 + 1 * p.val = i.val; omega
  | ⟨1, _⟩ => show win5_2.index t (1 : Fin 2) * 1 + 1 * 0 = 0; omega

theorem iblk5_3_apply (c : Dev nD) (t : Fin cfg5.N) (q : Fin 128) :
    (iblk5 V c 3 t : Vec Ideal S1x128 .f32) (ix2 (0 : Fin 1) q) = (V c (Pipeline.arrRef spec5 3) : S1x128.Idx → Elt Ideal .f32) (ix2 (0 : Fin 1) q) := by
  obtain ⟨-, -, -, -, -, -, e0, e1, -⟩ := idx_facts5 t
  unfold iblk5
  rw [View.read_apply]
  show V c _ _ = V c _ _
  congr 1; funext a; apply Fin.ext
  match a with
  | ⟨0, _⟩ => show win5_3.index t (0 : Fin 2) * 1 + 1 * 0 = 0; omega
  | ⟨1, _⟩ => show win5_3.index t (1 : Fin 2) * 128 + 1 * q.val = q.val; omega

theorem combine5_at (c : Dev nD) (t : Fin cfg5.N) (p : Fin 2000) (q : Fin 128) (i : Fin 50000) (hi : i.val = t.val * 2000 + p.val) :
    k5_pay1 (iblk5 V c 1 t) (iblk5 V c 0 t) (iblk5 V c 2 t) (iblk5 V c 3 t) (ix2 p q)
      = G5 (V c (Pipeline.arrRef spec5 0)) (V c (Pipeline.arrRef spec5 1)) (V c (Pipeline.arrRef spec5 2)) (V c (Pipeline.arrRef spec5 3)) (ix2 i q) := by
  rw [pay5_apply, iblk5_0_apply V c t p q i hi, iblk5_1_apply V c t p q i hi, iblk5_2_apply V c t p i hi, iblk5_3_apply V c t q]
  rfl

set_option maxHeartbeats 1000000 in

theorem flushed5_4_eq (c : Dev nD) (t : Fin cfg5.N) :
    (dat5 V c).flushed 4 t = ((cfg5.win 4).blk t).view.read (Elt Ideal)
      (G5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets5]
  simp only [View.ld_unit_zero (S := S2000x128) zero_offsets5, View.ld_unit_zero (S := S2000x1) zero_offsets5,
    View.ld_unit_zero (S := S1x128) zero_offsets5]
  funext y
  obtain ⟨-, -, -, -, -, -, -, -, e0, e1⟩ := idx_facts5 t
  have hy0 : (y 0).val < 2000 := (y 0).isLt
  have hy1 : (y 1).val < 128 := (y 1).isLt
  have ht : t.val < 25 := Nat.lt_of_lt_of_eq t.isLt N_5
  have hrow : t.val * 2000 + (y 0).val < 50000 := by omega
  have hx : (cfg5.win 4).xinj (grid5.coords t) y = ix2 (⟨(y 0).val, hy0⟩ : Fin 2000) (⟨(y 1).val, hy1⟩ : Fin 128) :=
    funext fun a => match a with | ⟨0, _⟩ => rfl | ⟨1, _⟩ => rfl
  have hk : ((cfg5.win 4).blk t).view.emb y = ix2 (⟨t.val * 2000 + (y 0).val, hrow⟩ : Fin 50000) (⟨(y 1).val, hy1⟩ : Fin 128) := by
    funext a; apply Fin.ext
    match a with
    | ⟨0, _⟩ => show win5_4.index t (0 : Fin 2) * 2000 + 1 * (y 0).val = t.val * 2000 + (y 0).val; omega
    | ⟨1, _⟩ => show win5_4.index t (1 : Fin 2) * 128 + 1 * (y 1).val = (y 1).val; omega
  show k5_pay1 (iblk5 V c 1 t) (iblk5 V c 0 t) (iblk5 V c 2 t) (iblk5 V c 3 t) ((cfg5.win 4).xinj (grid5.coords t) y)
    = G5 (V c (Pipeline.arrRef spec5 0)) (V c (Pipeline.arrRef spec5 1)) (V c (Pipeline.arrRef spec5 2)) (V c (Pipeline.arrRef spec5 3))
        (((cfg5.win 4).blk t).view.emb y)
  rw [hx, hk]
  exact combine5_at V c t ⟨(y 0).val, hy0⟩ ⟨(y 1).val, hy1⟩ ⟨t.val * 2000 + (y 0).val, hrow⟩ rfl

theorem mem_blk5_4 (t : Fin cfg5.N) (i : S50000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v78).slice (win5_4.rect t)).set ↔ _
  rw [View.set_slice_whole, Rect.mem_set_unit]
  exact Iff.rfl

theorem cover5_out (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, by rw [show cfg5.N = 25 from N_5]; omega⟩, rfl⟩
  obtain ⟨-, -, -, -, -, -, -, -, e0, e1⟩ := idx_facts5 t
  refine ⟨t, flush5_4 t, ?_⟩
  rw [mem_blk5_4]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

theorem final5_4 (c : Dev nD) : (dat5 V c).arrAt 4 cfg5.N
    = G5 (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_4_eq V c t) cover5_out

theorem G5_apply (a0 a1 : S50000x128.Idx → Elt Ideal .f32) (a2 : S50000x1.Idx → Elt Ideal .f32) (a3 : S1x128.Idx → Elt Ideal .f32)
    (i : Fin 50000) (j : Fin 128) :
    G5 a0 a1 a2 a3 (ix2 i j) = a1 (ix2 i j) + a0 (ix2 i j) * a2 (ix2 i (0 : Fin 1)) + a3 (ix2 (0 : Fin 1) j) := rfl

end Cert.KernelIdeal.Hand

end
-- ==== Proof.KI.Val6a.lean ====
import proofs.«428546_j9294309228814_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

theorem ofBits_one_f32 : Ideal.ofBits .f32 0x3F800000#32 = 1 := by
  simp [Ideal.ofBits, Ideal.ieee, -EReal.coe_mul]; norm_num

theorem k6_pay1_apply (g : Fin 64) (d : Fin 128) : k6_pay1 (F := Ideal) (ix2 g d) = 0 := by
  unfold k6_pay1
  simp only [shapeCast_self]
  show Ideal.ofBits .f32 0x00000000#32 = 0
  exact Ideal.ofBits_zero_f32

theorem k6_pay2_apply (g : Fin 64) : k6_pay2 (F := Ideal) (ix2 g (0 : Fin 1)) = 0 := by
  unfold k6_pay2
  simp only [shapeCast_self]
  show Ideal.ofBits .f32 0x00000000#32 = 0
  exact Ideal.ofBits_zero_f32

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem toInt_ofNat_small (g : Fin 64) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e]
  split <;> omega

theorem ofNat_toInt_eq (x : BitVec 32) (g : Fin 64) : x = BitVec.ofNat 32 g.val ↔ x.toInt = (g.val : ℤ) :=
  ⟨fun h => by rw [h]; exact toInt_ofNat_small g, fun h => BitVec.eq_of_toInt_eq (h.trans (toInt_ofNat_small g).symm)⟩

theorem iota_row_apply (g : Fin 64) : iota Kind.tc S1x64 32 [1] iota_S1x64_d1_w32 (ix2 (0 : Fin 1) g) = BitVec.ofNat 32 g.val := by
  unfold iota
  simp

theorem onehot_word (x : BitVec 32) (g : Fin 64) :
    FloatOps.sitofp (F := Ideal) FTy.f32 (BitVec.setWidth 32 (IntOp.cmpi CmpIPredicate.eq x (BitVec.ofNat 32 g.val)))
      = if x.toInt = (g.val : ℤ) then (1 : EReal) else 0 := by
  by_cases h : x.toInt = (g.val : ℤ)
  · rw [if_pos h, (ofNat_toInt_eq x g).mpr h]
    show (((BitVec.setWidth 32 (IntOp.cmpi CmpIPredicate.eq (BitVec.ofNat 32 g.val) (BitVec.ofNat 32 g.val))).toInt : ℝ) : EReal) = 1
    simp [IntOp.cmpi]
  · rw [if_neg h]
    have hne : ¬ x = BitVec.ofNat 32 g.val := fun e => h ((ofNat_toInt_eq x g).mp e)
    show (((BitVec.setWidth 32 (IntOp.cmpi CmpIPredicate.eq x (BitVec.ofNat 32 g.val))).toInt : ℝ) : EReal) = 0
    have hb : (x == BitVec.ofNat 32 g.val) = false := beq_eq_false_iff_ne.mpr hne
    simp [IntOp.cmpi, hb]

theorem k6_pay3_apply (ids : Vec Ideal S2000x1 .i32) (r : Fin 2000) (g : Fin 64) :
    k6_pay3 (F := Ideal) ids (ix2 r g) = if (ids (ix2 r (0 : Fin 1))).toInt = (g.val : ℤ) then (1 : EReal) else 0 := by
  unfold k6_pay3
  simp only [shapeCast_self]
  rw [sitofp_apply, extui_apply]
  show FloatOps.sitofp (F := Ideal) FTy.f32 ((IntOp.cmpi .eq (broadcastTo S2000x64 ids broadcasts_S2000x1_S2000x64 (ix2 r g))
      (broadcastTo S2000x64 (iota Kind.tc S1x64 32 [1] iota_S1x64_d1_w32) broadcasts_S1x64_S2000x64 (ix2 r g))).setWidth 32) = _
  rw [broadcastTo_a1_ab_apply ids broadcasts_S2000x1_S2000x64 r g, broadcastTo_1b_ab_apply _ broadcasts_S1x64_S2000x64 r g,
    iota_row_apply g]
  exact onehot_word _ g

abbrev D4 := dot_S2000x64_S2000x128_S64x128_0_0_1_1_n_n
abbrev D5 := dot_S2000x64_S2000x1_S64x1_0_0_1_1_n_n
abbrev D6 := dot_S64x128_S128x5_S64x5_1_0_0_1_n_n

theorem D4_rank : D4.contr.rank = 1 := by decide
theorem D4_size : D4.contr.size ⟨0, by rw [D4_rank]; exact Nat.one_pos⟩ = 2000 := by decide

theorem D4_lhs0 (j : S64x128.Idx) (k : D4.contr.Idx) : (D4.lhsIdx j k ⟨0, by decide⟩).val = (k ⟨0, by decide⟩).val :=
  D4.lhsIdx_val_of_single (cl := ⟨0, by decide⟩) rfl j k
theorem D4_rhs0 (j : S64x128.Idx) (k : D4.contr.Idx) : (D4.rhsIdx j k ⟨0, by decide⟩).val = (k ⟨0, by decide⟩).val :=
  D4.rhsIdx_val_of_single (cr := ⟨0, by decide⟩) rfl j k
theorem D4_lhs1 (j : S64x128.Idx) (k : D4.contr.Idx) : (D4.lhsIdx j k ⟨1, by decide⟩).val = (j ⟨0, by decide⟩).val := by
  simp [DotDims.lhsIdx, D4, dot_S2000x64_S2000x128_S64x128_0_0_1_1_n_n]; rfl
theorem D4_rhs1 (j : S64x128.Idx) (k : D4.contr.Idx) : (D4.rhsIdx j k ⟨1, by decide⟩).val = (j ⟨1, by decide⟩).val := by
  simp [DotDims.rhsIdx, D4, dot_S2000x64_S2000x128_S64x128_0_0_1_1_n_n]; rfl

def ce4 : D4.contr.Idx ≃ Fin 2000 := contrEquiv1 D4 2000 D4_rank D4_size

theorem D4_lhsIdx_eq (g : Fin 64) (d : Fin 128) (r : Fin 2000) : D4.lhsIdx (ix2 g d) (ce4.symm r) = ix2 r g := by
  funext a
  apply Fin.ext
  match a with
  | ⟨0, _⟩ => exact (D4_lhs0 (ix2 g d) (ce4.symm r)).trans (contrEquiv1_symm_val D4 2000 D4_rank D4_size r)
  | ⟨1, _⟩ => exact D4_lhs1 (ix2 g d) (ce4.symm r)

theorem D4_rhsIdx_eq (g : Fin 64) (d : Fin 128) (r : Fin 2000) : D4.rhsIdx (ix2 g d) (ce4.symm r) = ix2 r d := by
  funext a
  apply Fin.ext
  match a with
  | ⟨0, _⟩ => exact (D4_rhs0 (ix2 g d) (ce4.symm r)).trans (contrEquiv1_symm_val D4 2000 D4_rank D4_size r)
  | ⟨1, _⟩ => exact D4_rhs1 (ix2 g d) (ce4.symm r)

theorem k6_pay4_apply (x : Vec Ideal S2000x128 .f32) (ids : Vec Ideal S2000x1 .i32) (acc : Vec Ideal S64x128 .f32) (g : Fin 64) (d : Fin 128) :
    k6_pay4 (F := Ideal) x ids acc (ix2 g d)
      = acc (ix2 g d) + ∑ r : Fin 2000, (if (ids (ix2 r (0 : Fin 1))).toInt = (g.val : ℤ) then x (ix2 r d) else 0) := by
  unfold k6_pay4
  simp only [shapeCast_self]
  rw [addf_apply]
  congr 1
  simp only [matmul]
  refine (Ideal.matmul_constant_zero_apply D4 _ _ _ (ix2 g d)).trans ?_
  rw [← Equiv.sum_comp ce4.symm]
  refine Finset.sum_congr rfl fun r _ => ?_
  rw [D4_lhsIdx_eq, D4_rhsIdx_eq, k6_pay3_apply]
  split
  · exact one_mul _
  · exact zero_mul _

theorem D5_rank : D5.contr.rank = 1 := by decide
theorem D5_size : D5.contr.size ⟨0, by rw [D5_rank]; exact Nat.one_pos⟩ = 2000 := by decide

theorem D5_lhs0 (j : S64x1.Idx) (k : D5.contr.Idx) : (D5.lhsIdx j k ⟨0, by decide⟩).val = (k ⟨0, by decide⟩).val :=
  D5.lhsIdx_val_of_single (cl := ⟨0, by decide⟩) rfl j k
theorem D5_lhs1 (j : S64x1.Idx) (k : D5.contr.Idx) : (D5.lhsIdx j k ⟨1, by decide⟩).val = (j ⟨0, by decide⟩).val := by
  simp [DotDims.lhsIdx, D5, dot_S2000x64_S2000x1_S64x1_0_0_1_1_n_n]; rfl

def ce5 : D5.contr.Idx ≃ Fin 2000 := contrEquiv1 D5 2000 D5_rank D5_size

theorem D5_lhsIdx_eq (g : Fin 64) (r : Fin 2000) : D5.lhsIdx (ix2 g (0 : Fin 1)) (ce5.symm r) = ix2 r g := by
  funext a
  apply Fin.ext
  match a with
  | ⟨0, _⟩ => exact (D5_lhs0 (ix2 g (0 : Fin 1)) (ce5.symm r)).trans (contrEquiv1_symm_val D5 2000 D5_rank D5_size r)
  | ⟨1, _⟩ => exact D5_lhs1 (ix2 g (0 : Fin 1)) (ce5.symm r)

theorem k6_pay5_apply (ids : Vec Ideal S2000x1 .i32) (cnt : Vec Ideal S64x1 .f32) (g : Fin 64) :
    k6_pay5 (F := Ideal) ids cnt (ix2 g (0 : Fin 1))
      = cnt (ix2 g (0 : Fin 1)) + ∑ r : Fin 2000, (if (ids (ix2 r (0 : Fin 1))).toInt = (g.val : ℤ) then (1 : EReal) else 0) := by
  unfold k6_pay5
  simp only [shapeCast_self]
  rw [addf_apply]
  refine congrArg (cnt (ix2 g (0 : Fin 1)) + ·) ?_
  simp only [matmul]
  refine (Ideal.matmul_constant_zero_apply D5 _ _ _ (ix2 g (0 : Fin 1))).trans ?_
  rw [← Equiv.sum_comp ce5.symm]
  refine Finset.sum_congr rfl fun r _ => ?_
  rw [D5_lhsIdx_eq, k6_pay3_apply, broadcast_apply]
  show _ * Ideal.ofBits .f32 0x3F800000#32 = _
  rw [ofBits_one_f32, mul_one]

theorem D6_rank : D6.contr.rank = 1 := by decide
theorem D6_size : D6.contr.size ⟨0, by rw [D6_rank]; exact Nat.one_pos⟩ = 128 := by decide

theorem D6_lhs1 (j : S64x5.Idx) (k : D6.contr.Idx) : (D6.lhsIdx j k ⟨1, by decide⟩).val = (k ⟨0, by decide⟩).val :=
  D6.lhsIdx_val_of_single (cl := ⟨1, by decide⟩) rfl j k
theorem D6_rhs0 (j : S64x5.Idx) (k : D6.contr.Idx) : (D6.rhsIdx j k ⟨0, by decide⟩).val = (k ⟨0, by decide⟩).val :=
  D6.rhsIdx_val_of_single (cr := ⟨0, by decide⟩) rfl j k
theorem D6_lhs0 (j : S64x5.Idx) (k : D6.contr.Idx) : (D6.lhsIdx j k ⟨0, by decide⟩).val = (j ⟨0, by decide⟩).val := by
  simp [DotDims.lhsIdx, D6, dot_S64x128_S128x5_S64x5_1_0_0_1_n_n]; rfl
theorem D6_rhs1 (j : S64x5.Idx) (k : D6.contr.Idx) : (D6.rhsIdx j k ⟨1, by decide⟩).val = (j ⟨1, by decide⟩).val := by
  simp [DotDims.rhsIdx, D6, dot_S64x128_S128x5_S64x5_1_0_0_1_n_n]; rfl

def ce6 : D6.contr.Idx ≃ Fin 128 := contrEquiv1 D6 128 D6_rank D6_size

theorem D6_lhsIdx_eq (g : Fin 64) (k : Fin 5) (d : Fin 128) : D6.lhsIdx (ix2 g k) (ce6.symm d) = ix2 g d := by
  funext a
  apply Fin.ext
  match a with
  | ⟨0, _⟩ => exact D6_lhs0 (ix2 g k) (ce6.symm d)
  | ⟨1, _⟩ => exact (D6_lhs1 (ix2 g k) (ce6.symm d)).trans (contrEquiv1_symm_val D6 128 D6_rank D6_size d)

theorem D6_rhsIdx_eq (g : Fin 64) (k : Fin 5) (d : Fin 128) : D6.rhsIdx (ix2 g k) (ce6.symm d) = ix2 d k := by
  funext a
  apply Fin.ext
  match a with
  | ⟨0, _⟩ => exact (D6_rhs0 (ix2 g k) (ce6.symm d)).trans (contrEquiv1_symm_val D6 128 D6_rank D6_size d)
  | ⟨1, _⟩ => exact D6_rhs1 (ix2 g k) (ce6.symm d)

theorem k6_pay6_apply (sums : Vec Ideal S64x128 .f32) (cnt : Vec Ideal S64x1 .f32) (w : Vec Ideal S128x5 .f32) (b : Vec Ideal S1x5 .f32)
    (g : Fin 64) (k : Fin 5) :
    k6_pay6 (F := Ideal) sums cnt w b (ix2 g k)
      = (∑ d : Fin 128, Ideal.div (sums (ix2 g d)) (max (cnt (ix2 g (0 : Fin 1))) 1) * w (ix2 d k)) + b (ix2 (0 : Fin 1) k) := by
  unfold k6_pay6
  simp only [shapeCast_self]
  rw [addf_apply, broadcastTo_1b_ab_apply b broadcasts_S1x5_S64x5 g k]
  refine congrArg (· + b (ix2 (0 : Fin 1) k)) ?_
  simp only [matmul]
  refine (Ideal.matmul_constant_zero_apply D6 _ _ _ (ix2 g k)).trans ?_
  rw [← Equiv.sum_comp ce6.symm]
  refine Finset.sum_congr rfl fun d _ => ?_
  rw [D6_lhsIdx_eq, D6_rhsIdx_eq, divf_apply, broadcastTo_a1_ab_apply _ broadcasts_S64x1_S64x128 g d, maximumf_apply, broadcast_apply]
  show Ideal.div _ (max _ (Ideal.ofBits .f32 0x3F800000#32)) * _ = _
  rw [ofBits_one_f32]

end Cert.KernelIdeal.Hand

end
-- ==== Proof.KI.Val6.lean ====
import proofs.«428546_j9294309228814_1_alg».proof.Proof.KI.Reg6
import proofs.«428546_j9294309228814_1_alg».proof.Proof.KI.Val6a
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xarr6 (c : Dev nD) : Vec Ideal S50000x128 .f32 := V c (Pipeline.arrRef spec6 0)
abbrev idarr6 (c : Dev nD) : Vec Ideal S50000x1 .i32 := V c (Pipeline.arrRef spec6 1)
abbrev warr6 (c : Dev nD) : Vec Ideal S128x5 .f32 := V c (Pipeline.arrRef spec6 2)
abbrev barr6 (c : Dev nD) : Vec Ideal S1x5 .f32 := V c (Pipeline.arrRef spec6 3)
abbrev xblk6 (c : Dev nD) (t : Fin cfg6.N) : Vec Ideal S2000x128 .f32 := iblk6 V c 0 t
abbrev idblk6 (c : Dev nD) (t : Fin cfg6.N) : Vec Ideal S2000x1 .i32 := iblk6 V c 1 t
abbrev wblk6 (c : Dev nD) (t : Fin cfg6.N) : Vec Ideal S128x5 .f32 := iblk6 V c 2 t
abbrev bblk6 (c : Dev nD) (t : Fin cfg6.N) : Vec Ideal S1x5 .f32 := iblk6 V c 3 t

theorem hidx6_0 : ∀ t : Fin cfg6.N, win6_0.index t 0 = t.val ∧ win6_0.index t 1 = 0 :=
  (by decide +kernel : ∀ t : Fin grid6.N, win6_0.index t 0 = t.val ∧ win6_0.index t 1 = 0)
theorem hidx6_1 : ∀ t : Fin cfg6.N, win6_1.index t 0 = t.val ∧ win6_1.index t 1 = 0 :=
  (by decide +kernel : ∀ t : Fin grid6.N, win6_1.index t 0 = t.val ∧ win6_1.index t 1 = 0)
theorem hidx6_2 : ∀ t : Fin cfg6.N, win6_2.index t 0 = 0 ∧ win6_2.index t 1 = 0 :=
  (by decide +kernel : ∀ t : Fin grid6.N, win6_2.index t 0 = 0 ∧ win6_2.index t 1 = 0)
theorem hidx6_3 : ∀ t : Fin cfg6.N, win6_3.index t 0 = 0 ∧ win6_3.index t 1 = 0 :=
  (by decide +kernel : ∀ t : Fin grid6.N, win6_3.index t 0 = 0 ∧ win6_3.index t 1 = 0)

theorem xblk6_apply (c : Dev nD) (t : Fin cfg6.N) (r : Fin 2000) (d : Fin 128) :
    xblk6 V c t (ix2 r d) = xarr6 V c (ix2 (⟨2000 * t.val + r.val, by have := t.isLt; have : cfg6.N = 25 := N_6; omega⟩ : Fin 50000) d) := by
  unfold xblk6 iblk6
  rw [View.read_apply]
  show xarr6 V c (((cfg6.win 0).blk t).view.emb (ix2 r d)) = _
  refine congrArg (xarr6 V c) ?_
  funext a
  apply Fin.ext
  match a with
  | ⟨0, _⟩ =>
    show win6_0.index t 0 * 2000 + 1 * r.val = 2000 * t.val + r.val
    rw [(hidx6_0 t).1]; omega
  | ⟨1, _⟩ =>
    show win6_0.index t 1 * 128 + 1 * d.val = d.val
    rw [(hidx6_0 t).2]; omega

theorem idblk6_apply (c : Dev nD) (t : Fin cfg6.N) (r : Fin 2000) :
    idblk6 V c t (ix2 r (0 : Fin 1)) = idarr6 V c (ix2 (⟨2000 * t.val + r.val, by have := t.isLt; have : cfg6.N = 25 := N_6; omega⟩ : Fin 50000) (0 : Fin 1)) := by
  unfold idblk6 iblk6
  rw [View.read_apply]
  show idarr6 V c (((cfg6.win 1).blk t).view.emb (ix2 r (0 : Fin 1))) = _
  refine congrArg (idarr6 V c) ?_
  funext a
  apply Fin.ext
  match a with
  | ⟨0, _⟩ =>
    show win6_1.index t 0 * 2000 + 1 * r.val = 2000 * t.val + r.val
    rw [(hidx6_1 t).1]; omega
  | ⟨1, _⟩ =>
    show win6_1.index t 1 * 1 + 1 * 0 = 0
    rw [(hidx6_1 t).2]

theorem wblk6_apply (c : Dev nD) (t : Fin cfg6.N) (d : Fin 128) (k : Fin 5) : wblk6 V c t (ix2 d k) = warr6 V c (ix2 d k) := by
  unfold wblk6 iblk6
  rw [View.read_apply]
  show warr6 V c (((cfg6.win 2).blk t).view.emb (ix2 d k)) = _
  refine congrArg (warr6 V c) ?_
  funext a
  apply Fin.ext
  match a with
  | ⟨0, _⟩ =>
    show win6_2.index t 0 * 128 + 1 * d.val = d.val
    rw [(hidx6_2 t).1]; omega
  | ⟨1, _⟩ =>
    show win6_2.index t 1 * 5 + 1 * k.val = k.val
    rw [(hidx6_2 t).2]; omega

theorem bblk6_apply (c : Dev nD) (t : Fin cfg6.N) (k : Fin 5) : bblk6 V c t (ix2 (0 : Fin 1) k) = barr6 V c (ix2 (0 : Fin 1) k) := by
  unfold bblk6 iblk6
  rw [View.read_apply]
  show barr6 V c (((cfg6.win 3).blk t).view.emb (ix2 (0 : Fin 1) k)) = _
  refine congrArg (barr6 V c) ?_
  funext a
  apply Fin.ext
  match a with
  | ⟨0, _⟩ =>
    show win6_3.index t 0 * 1 + 1 * 0 = 0
    rw [(hidx6_3 t).1]
  | ⟨1, _⟩ =>
    show win6_3.index t 1 * 5 + 1 * k.val = k.val
    rw [(hidx6_3 t).2]; omega

def rowX (c : Dev nD) (g : Fin 64) (d : Fin 128) (i : ℕ) : EReal :=
  if h : i < 50000 then (if (idarr6 V c (ix2 (⟨i, h⟩ : Fin 50000) (0 : Fin 1))).toInt = (g.val : ℤ) then xarr6 V c (ix2 (⟨i, h⟩ : Fin 50000) d) else 0) else 0

def rowC (c : Dev nD) (g : Fin 64) (i : ℕ) : EReal :=
  if h : i < 50000 then (if (idarr6 V c (ix2 (⟨i, h⟩ : Fin 50000) (0 : Fin 1))).toInt = (g.val : ℤ) then (1 : EReal) else 0) else 0

theorem tileX (c : Dev nD) (g : Fin 64) (d : Fin 128) (t : Fin cfg6.N) :
    (∑ r : Fin 2000, (if (idblk6 V c t (ix2 r (0 : Fin 1))).toInt = (g.val : ℤ) then xblk6 V c t (ix2 r d) else 0))
      = ∑ r ∈ Finset.range 2000, rowX V c g d (2000 * t.val + r) := by
  rw [Finset.sum_range]
  refine Finset.sum_congr rfl fun r _ => ?_
  have hlt : 2000 * t.val + r.val < 50000 := by have := t.isLt; have : cfg6.N = 25 := N_6; omega
  rw [idblk6_apply, xblk6_apply]
  unfold rowX
  rw [dif_pos hlt]

theorem tileC (c : Dev nD) (g : Fin 64) (t : Fin cfg6.N) :
    (∑ r : Fin 2000, (if (idblk6 V c t (ix2 r (0 : Fin 1))).toInt = (g.val : ℤ) then (1 : EReal) else 0))
      = ∑ r ∈ Finset.range 2000, rowC V c g (2000 * t.val + r) := by
  rw [Finset.sum_range]
  refine Finset.sum_congr rfl fun r _ => ?_
  have hlt : 2000 * t.val + r.val < 50000 := by have := t.isLt; have : cfg6.N = 25 := N_6; omega
  rw [idblk6_apply]
  unfold rowC
  rw [dif_pos hlt]

theorem allX (c : Dev nD) (g : Fin 64) (d : Fin 128) :
    (∑ i ∈ Finset.range 50000, rowX V c g d i)
      = ∑ n : Fin 50000, (if (idarr6 V c (ix2 n (0 : Fin 1))).toInt = (g.val : ℤ) then xarr6 V c (ix2 n d) else 0) := by
  rw [Finset.sum_range]
  refine Finset.sum_congr rfl fun n _ => ?_
  unfold rowX
  rw [dif_pos n.isLt]

theorem allC (c : Dev nD) (g : Fin 64) :
    (∑ i ∈ Finset.range 50000, rowC V c g i)
      = ∑ n : Fin 50000, (if (idarr6 V c (ix2 n (0 : Fin 1))).toInt = (g.val : ℤ) then (1 : EReal) else 0) := by
  rw [Finset.sum_range]
  refine Finset.sum_congr rfl fun n _ => ?_
  unfold rowC
  rw [dif_pos n.isLt]

theorem sums_inv (c : Dev nD) (g : Fin 64) (d : Fin 128) : ∀ (n : ℕ) (h : n < cfg6.N),
    (outsAt6 V c n h).2.1 (ix2 g d) = ∑ i ∈ Finset.range (2000 * (n + 1)), rowX V c g d i
  | 0, h => by
    rw [outsAt6_sums_zero V c h]
    refine (k6_pay4_apply (xblk6 V c ⟨0, h⟩) (idblk6 V c ⟨0, h⟩) (k6_pay1 (F := Ideal)) g d).trans ?_
    rw [k6_pay1_apply g d, zero_add, tileX V c g d ⟨0, h⟩]
    refine Finset.sum_congr rfl fun r _ => ?_
    show rowX V c g d (2000 * 0 + r) = _
    rw [Nat.mul_zero, Nat.zero_add]
  | n + 1, h => by
    rw [outsAt6_sums_succ V c n h]
    refine (k6_pay4_apply (xblk6 V c ⟨n + 1, h⟩) (idblk6 V c ⟨n + 1, h⟩) (outsAt6 V c n (Nat.lt_of_succ_lt h)).2.1 g d).trans ?_
    rw [sums_inv c g d n (Nat.lt_of_succ_lt h), tileX V c g d ⟨n + 1, h⟩,
      show 2000 * (n + 1 + 1) = 2000 * (n + 1) + 2000 from by ring, Finset.sum_range_add]

theorem cnt_inv (c : Dev nD) (g : Fin 64) : ∀ (n : ℕ) (h : n < cfg6.N),
    (outsAt6 V c n h).2.2 (ix2 g (0 : Fin 1)) = ∑ i ∈ Finset.range (2000 * (n + 1)), rowC V c g i
  | 0, h => by
    rw [outsAt6_cnt_zero V c h]
    refine (k6_pay5_apply (idblk6 V c ⟨0, h⟩) (k6_pay2 (F := Ideal)) g).trans ?_
    rw [k6_pay2_apply g, zero_add, tileC V c g ⟨0, h⟩]
    refine Finset.sum_congr rfl fun r _ => ?_
    show rowC V c g (2000 * 0 + r) = _
    rw [Nat.mul_zero, Nat.zero_add]
  | n + 1, h => by
    rw [outsAt6_cnt_succ V c n h]
    refine (k6_pay5_apply (idblk6 V c ⟨n + 1, h⟩) (outsAt6 V c n (Nat.lt_of_succ_lt h)).2.2 g).trans ?_
    rw [cnt_inv c g n (Nat.lt_of_succ_lt h), tileC V c g ⟨n + 1, h⟩,
      show 2000 * (n + 1 + 1) = 2000 * (n + 1) + 2000 from by ring, Finset.sum_range_add]

theorem lt24 : 24 < cfg6.N := by decide

abbrev tLast6 : Fin cfg6.N := ⟨24, lt24⟩

theorem out_last_apply (c : Dev nD) (g : Fin 64) (k : Fin 5) :
    (outsAt6 V c 24 lt24).1 (ix2 g k)
      = (∑ d : Fin 128, Ideal.div (∑ n : Fin 50000, (if (idarr6 V c (ix2 n (0 : Fin 1))).toInt = (g.val : ℤ) then xarr6 V c (ix2 n d) else 0))
                                  (max (∑ n : Fin 50000, (if (idarr6 V c (ix2 n (0 : Fin 1))).toInt = (g.val : ℤ) then (1 : EReal) else 0)) 1)
            * warr6 V c (ix2 d k))
        + barr6 V c (ix2 (0 : Fin 1) k) := by
  rw [outsAt6_out V c 24 lt24]
  refine (k6_pay6_apply (outsAt6 V c 24 lt24).2.1 (outsAt6 V c 24 lt24).2.2 (wblk6 V c tLast6) (bblk6 V c tLast6) g k).trans ?_
  rw [cnt_inv V c g 24 lt24, bblk6_apply V c tLast6 k, show 2000 * (24 + 1) = 50000 from by norm_num, allC V c g]
  refine congrArg (· + barr6 V c (ix2 (0 : Fin 1) k)) ?_
  refine Finset.sum_congr rfl fun d _ => ?_
  rw [sums_inv V c g d 24 lt24, show 2000 * (24 + 1) = 50000 from by norm_num, allX V c g d, wblk6_apply V c tLast6 d k]

theorem cut_last6 (X : Vec Ideal S64x5 .f32) :
    (cfg6.win 4).cut (grid6.coords tLast6) X = ((cfg6.win 4).blk tLast6).view.read (Elt Ideal) X := by
  have hz' : (fun a => win6_4.index tLast6 a * main_v81.ty.shape.size a) = fun _ => 0 := funext fun a => by fin_cases a <;> decide
  exact (Memref.read_access_unit_zero (Elt Ideal) main_v81 hz' (fun a => by rw [congrFun hz' a]; simp) X).symm

theorem flushed6_4 (c : Dev nD) (t : Fin cfg6.N) (hf : (cfg6.win 4).flush t = true) :
    (dat6 (F := Ideal) V c).flushed 4 t = ((cfg6.win 4).blk t).view.read (Elt Ideal) (outsAt6 V c 24 lt24).1 := by
  have hN : cfg6.N = 25 := N_6
  have h24 : t.val = 24 := by have := (flush6_4 t).mp hf; have := t.isLt; omega
  obtain rfl : t = tLast6 := Fin.ext h24
  show (cfg6.win 4).cut (grid6.coords tLast6) ((dat6 (F := Ideal) V c).after 4 tLast6) = _
  rw [after6_4 V c tLast6]
  show (cfg6.win 4).cut (grid6.coords tLast6) (outsAt6 V c 24 lt24).1 = _
  generalize (outsAt6 V c 24 lt24).1 = X
  exact cut_last6 X

theorem cover6_4 (i : S64x5.Idx) : ∃ t : Fin cfg6.N, (cfg6.win 4).flush t = true ∧ i ∈ ((cfg6.win 4).blk t).view.set := by
  refine ⟨tLast6, (flush6_4 tLast6).mpr rfl, ?_⟩
  show i ∈ ((View.whole main_v81).slice (win6_4.rect tLast6)).set
  rw [View.set_slice_whole, Rect.mem_set_unit]
  intro a
  have h0 : (i 0 : Nat) < 64 := (i 0).isLt
  have h1 : (i 1 : Nat) < 5 := (i 1).isLt
  match a with
  | ⟨0, _⟩ =>
    show win6_4.index tLast6 0 * win6_4.size 0 ≤ (i 0 : Nat) ∧ (i 0 : Nat) < win6_4.index tLast6 0 * win6_4.size 0 + win6_4.xsize (grid6.coords tLast6) 0
    rw [show win6_4.index tLast6 0 * win6_4.size 0 = 0 from by decide +kernel, show win6_4.xsize (grid6.coords tLast6) 0 = 64 from by decide +kernel]; omega
  | ⟨1, _⟩ =>
    show win6_4.index tLast6 1 * win6_4.size 1 ≤ (i 1 : Nat) ∧ (i 1 : Nat) < win6_4.index tLast6 1 * win6_4.size 1 + win6_4.xsize (grid6.coords tLast6) 1
    rw [show win6_4.index tLast6 1 * win6_4.size 1 = 0 from by decide +kernel, show win6_4.xsize (grid6.coords tLast6) 1 = 5 from by decide +kernel]; omega

theorem arrAt6_out (V : (c : Dev nD) → (b : Ref sig .tc) → Buf (Elt Ideal) ((c : Thread nD τ).loc b)) (c : Dev nD) (g : Fin 64) (k : Fin 5) :
    (dat6 (F := Ideal) V c).arrAt 4 cfg6.N (ValueIdx.ix2 g k)
      = (∑ d : Fin 128, Ideal.div (∑ n : Fin 50000, (if (V c (Pipeline.arrRef spec6 1) (ValueIdx.ix2 n 0)).toInt = (g.val : ℤ) then V c (Pipeline.arrRef spec6 0) (ValueIdx.ix2 n d) else 0))
                                  (max (∑ n : Fin 50000, (if (V c (Pipeline.arrRef spec6 1) (ValueIdx.ix2 n 0)).toInt = (g.val : ℤ) then (1 : EReal) else 0)) 1)
            * V c (Pipeline.arrRef spec6 2) (ValueIdx.ix2 d k))
        + V c (Pipeline.arrRef spec6 3) (ValueIdx.ix2 0 k) := by
  have hfin : (dat6 (F := Ideal) V c).arrAt 4 cfg6.N = (outsAt6 V c 24 lt24).1 :=
    (dat6 (F := Ideal) V c).arrAt_eq_of_cover 4 (outsAt6 V c 24 lt24).1 (flushed6_4 V c) cover6_4
  rw [hfin]
  exact out_last_apply V c g k

end Cert.KernelIdeal.Hand

end
-- ==== Proof.Bridge.Lin.lean ====
import proofs.«428546_j9294309228814_1_alg».proof.Proof.Gen.ReferenceIdeal
import proofs.«428546_j9294309228814_1_alg».proof.Proof.KI.Val0
import proofs.«428546_j9294309228814_1_alg».proof.Proof.KI.Val2
import proofs.«428546_j9294309228814_1_alg».proof.Proof.KI.Val4
import Idealize.ShloMosaic.Lib.ValueIdx
import Idealize.ShloMosaic.PureOps.Ideal.Laws

noncomputable section

namespace Cert.Bridge

open Cert.ReferenceIdeal
open Idealize.ShloMosaic Idealize.ShloMosaic.TcCoe
open scoped BigOperators

theorem lhs_in_0 (i : S50000x128.Idx) (q : dot_S50000x7_S7x128_S50000x128_1_0_0_1_n_n.contr.Idx) :
    (dot_S50000x7_S7x128_S50000x128_1_0_0_1_n_n.lhsIdx i q 0).val = (i 0).val := by
  unfold DotDims.lhsIdx
  rw [dif_neg (show ¬(0 : Fin S50000x7.rank) ∈ dot_S50000x7_S7x128_S50000x128_1_0_0_1_n_n.lhsBatch by decide), dif_pos (show (0 : Fin S50000x7.rank) ∈ dot_S50000x7_S7x128_S50000x128_1_0_0_1_n_n.lhsNonContracting by decide)]
  rfl
theorem lhs_in_1 (i : S50000x128.Idx) (q : dot_S50000x7_S7x128_S50000x128_1_0_0_1_n_n.contr.Idx) :
    (dot_S50000x7_S7x128_S50000x128_1_0_0_1_n_n.lhsIdx i q 1).val = (q ⟨0, by decide⟩).val :=
  dot_S50000x7_S7x128_S50000x128_1_0_0_1_n_n.lhsIdx_val_of_single rfl i q
theorem rhs_in_0 (i : S50000x128.Idx) (q : dot_S50000x7_S7x128_S50000x128_1_0_0_1_n_n.contr.Idx) :
    (dot_S50000x7_S7x128_S50000x128_1_0_0_1_n_n.rhsIdx i q 0).val = (q ⟨0, by decide⟩).val :=
  dot_S50000x7_S7x128_S50000x128_1_0_0_1_n_n.rhsIdx_val_of_single rfl i q
theorem rhs_in_1 (i : S50000x128.Idx) (q : dot_S50000x7_S7x128_S50000x128_1_0_0_1_n_n.contr.Idx) :
    (dot_S50000x7_S7x128_S50000x128_1_0_0_1_n_n.rhsIdx i q 1).val = (i 1).val := by
  unfold DotDims.rhsIdx
  rw [dif_neg (show ¬(1 : Fin S7x128.rank) ∈ dot_S50000x7_S7x128_S50000x128_1_0_0_1_n_n.rhsBatch by decide), dif_pos (show (1 : Fin S7x128.rank) ∈ dot_S50000x7_S7x128_S50000x128_1_0_0_1_n_n.rhsNonContracting by decide)]
  rfl

theorem dot_in_apply (X : FVec Ideal S50000x7 .f32) (W : FVec Ideal S7x128 .f32) (r : Fin 50000) (q : Fin 128) :
    Host.dotGeneral dot_S50000x7_S7x128_S50000x128_1_0_0_1_n_n none X W (ValueIdx.ix2 r q) = ∑ k : Fin 7, X (ValueIdx.ix2 r k) * W (ValueIdx.ix2 k q) := by
  simp only [Host.dotGeneral]
  rw [Ideal.dotGeneral_apply, ← Equiv.sum_comp (ValueIdx.contrEquiv1 dot_S50000x7_S7x128_S50000x128_1_0_0_1_n_n 7 rfl rfl).symm]
  refine Finset.sum_congr rfl fun k _ => ?_
  have hk := ValueIdx.contrEquiv1_symm_val dot_S50000x7_S7x128_S50000x128_1_0_0_1_n_n 7 rfl rfl k
  have el : dot_S50000x7_S7x128_S50000x128_1_0_0_1_n_n.lhsIdx (ValueIdx.ix2 r q) ((ValueIdx.contrEquiv1 dot_S50000x7_S7x128_S50000x128_1_0_0_1_n_n 7 rfl rfl).symm k) = ValueIdx.ix2 r k := funext fun a => Fin.ext (by
    match a with
    | ⟨0, _⟩ => exact lhs_in_0 _ _
    | ⟨1, _⟩ => exact (lhs_in_1 _ _).trans hk)
  have er : dot_S50000x7_S7x128_S50000x128_1_0_0_1_n_n.rhsIdx (ValueIdx.ix2 r q) ((ValueIdx.contrEquiv1 dot_S50000x7_S7x128_S50000x128_1_0_0_1_n_n 7 rfl rfl).symm k) = ValueIdx.ix2 k q := funext fun a => Fin.ext (by
    match a with
    | ⟨0, _⟩ => exact (rhs_in_0 _ _).trans hk
    | ⟨1, _⟩ => exact rhs_in_1 _ _)
  rw [el, er]

theorem lhs_hid_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_hid_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_hid_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_hid_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem dot_hid_apply (X : FVec Ideal S50000x128 .f32) (W : FVec Ideal S128x128 .f32) (r : Fin 50000) (q : Fin 128) :
    Host.dotGeneral dot_S50000x128_S128x128_S50000x128_1_0_0_1_n_n none X W (ValueIdx.ix2 r q) = ∑ k : Fin 128, X (ValueIdx.ix2 r k) * W (ValueIdx.ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 r q) ((ValueIdx.contrEquiv1 dot_S50000x128_S128x128_S50000x128_1_0_0_1_n_n 128 rfl rfl).symm k) = ValueIdx.ix2 r k := funext fun a => Fin.ext (by
    match a with
    | ⟨0, _⟩ => exact lhs_hid_0 _ _
    | ⟨1, _⟩ => exact (lhs_hid_1 _ _).trans hk)
  have er : dot_S50000x128_S128x128_S50000x128_1_0_0_1_n_n.rhsIdx (ValueIdx.ix2 r q) ((ValueIdx.contrEquiv1 dot_S50000x128_S128x128_S50000x128_1_0_0_1_n_n 128 rfl rfl).symm k) = ValueIdx.ix2 k q := funext fun a => Fin.ext (by
    match a with
    | ⟨0, _⟩ => exact (rhs_hid_0 _ _).trans hk
    | ⟨1, _⟩ => exact rhs_hid_1 _ _)
  rw [el, er]

theorem lin0_ref (X : FVec Ideal Cert.ReferenceIdeal.S50000x7 .f32) (W : FVec Ideal Cert.ReferenceIdeal.S7x128 .f32) :
    Cert.KernelIdeal.Hand.prod0 X W = Host.dotGeneral Cert.ReferenceIdeal.dot_S50000x7_S7x128_S50000x128_1_0_0_1_n_n none X W := by
  funext idx
  obtain ⟨r, q, rfl⟩ : ∃ (r : Fin 50000) (q : Fin 128), idx = ValueIdx.ix2 r q := ⟨idx 0, idx 1, ValueIdx.eq_ix2 idx⟩
  exact (Cert.KernelIdeal.Hand.prod0_apply X W r q).trans (dot_in_apply X W r q).symm

theorem lin2_ref (X : FVec Ideal Cert.ReferenceIdeal.S50000x128 .f32) (W : FVec Ideal Cert.ReferenceIdeal.S128x128 .f32) :
    Cert.KernelIdeal.Hand.prod2 X W = Host.dotGeneral Cert.ReferenceIdeal.dot_S50000x128_S128x128_S50000x128_1_0_0_1_n_n none X W := by
  funext idx
  obtain ⟨r, q, rfl⟩ : ∃ (r : Fin 50000) (q : Fin 128), idx = ValueIdx.ix2 r q := ⟨idx 0, idx 1, ValueIdx.eq_ix2 idx⟩
  exact (Cert.KernelIdeal.Hand.prod2_apply X W r q).trans (dot_hid_apply X W r q).symm

end Cert.Bridge

end
-- ==== Proof.Bridge.Host.lean ====
import proofs.«428546_j9294309228814_1_alg».proof.Proof.Gen.KernelIdeal.Regions
import proofs.«428546_j9294309228814_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Mathlib.Logic.Function.Basic

noncomputable section

namespace Cert.Bridge

open Idealize.ShloMosaic Idealize.ShloMosaic.TcCoe Idealize.SL.Sem Idealize.ShloMosaic.StableHlo
open Idealize.ShloMosaic.ValueIdx
open Cert.ReferenceIdeal.Read

variable {F : FTy → Type} [FloatOps F]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

section Copies

variable (x1 : (⟨Cert.ReferenceIdeal.S2x800000, .i32⟩ : BufTy).Contents (Elt F)) (x2 : (⟨Cert.ReferenceIdeal.S800000, .f32⟩ : BufTy).Contents (Elt F))

theorem C_v53 : val_main_v53 (F := F) = val_main_v5 := rfl
theorem C_v54 : val_main_v54 (F := F) x1 = val_main_v6 x1 := rfl
theorem C_v55 : val_main_v55 (F := F) x1 x2 = val_main_v7 x1 x2 := by
  unfold val_main_v55 val_main_v7; rw [C_v53, C_v54]
theorem C_v56 : val_main_v56 (F := F) = val_main_v8 := rfl
theorem C_v57 : val_main_v57 (F := F) x1 x2 = val_main_v9 x1 x2 := by
  unfold val_main_v57 val_main_v9; rw [C_v55, C_v56]
theorem C_v58 : val_main_v58 (F := F) = val_main_v10 := rfl
theorem C_v59 : val_main_v59 (F := F) x1 x2 = val_main_v11 x1 x2 := by
  unfold val_main_v59 val_main_v11; rw [C_v57, C_v58]
theorem C_v60 : val_main_v60 (F := F) x1 x2 = val_main_v12 x1 x2 := by
  unfold val_main_v60 val_main_v12; rw [C_v57]
theorem C_call2 : val_main_call2_v1 (F := F) = val_main_call0_v1 := rfl

theorem C_dinv2 : val_main_v61 (F := F) x1 x2 = val_main_v13 x1 x2 := by
  unfold val_main_v61 val_main_v13; rw [C_v59, C_v60, C_call2]
end Copies

section Copies2

variable (x1 : (⟨Cert.ReferenceIdeal.S2x800000, .i32⟩ : BufTy).Contents (Elt F)) (x2 : (⟨Cert.ReferenceIdeal.S800000, .f32⟩ : BufTy).Contents (Elt F))

theorem C_v67 : val_main_v67 (F := F) x1 = val_main_v19 x1 := rfl
theorem C_v68 : val_main_v68 (F := F) x1 x2 = val_main_v20 x1 x2 := by
  unfold val_main_v68 val_main_v20; rw [C_dinv2, C_v67]
theorem C_v69 : val_main_v69 (F := F) x1 x2 = val_main_v21 x1 x2 := by
  unfold val_main_v69 val_main_v21; rw [C_v68]
theorem C_v75 : val_main_v75 (F := F) x1 = val_main_v27 x1 := rfl
theorem C_v76 : val_main_v76 (F := F) x1 x2 = val_main_v28 x1 x2 := by
  unfold val_main_v76 val_main_v28; rw [C_dinv2, C_v75]

theorem C_norm2 : val_main_v77 (F := F) x1 x2 = val_main_v29 x1 x2 := by
  unfold val_main_v77 val_main_v29; rw [C_v69, C_v76]

theorem C_v101 : val_main_v101 (F := F) = val_main_v5 := rfl
theorem C_v102 : val_main_v102 (F := F) x1 = val_main_v6 x1 := rfl
theorem C_v103 : val_main_v103 (F := F) x1 x2 = val_main_v7 x1 x2 := by
  unfold val_main_v103 val_main_v7; rw [C_v101, C_v102]
theorem C_v104 : val_main_v104 (F := F) = val_main_v8 := rfl
theorem C_v105 : val_main_v105 (F := F) x1 x2 = val_main_v9 x1 x2 := by
  unfold val_main_v105 val_main_v9; rw [C_v103, C_v104]
theorem C_v106 : val_main_v106 (F := F) = val_main_v10 := rfl
theorem C_v107 : val_main_v107 (F := F) x1 x2 = val_main_v11 x1 x2 := by
  unfold val_main_v107 val_main_v11; rw [C_v105, C_v106]
theorem C_v108 : val_main_v108 (F := F) x1 x2 = val_main_v12 x1 x2 := by
  unfold val_main_v108 val_main_v12; rw [C_v105]
theorem C_call4 : val_main_call4_v1 (F := F) = val_main_call0_v1 := rfl

theorem C_dinv3 : val_main_v109 (F := F) x1 x2 = val_main_v13 x1 x2 := by
  unfold val_main_v109 val_main_v13; rw [C_v107, C_v108, C_call4]
theorem C_v115 : val_main_v115 (F := F) x1 = val_main_v19 x1 := rfl
theorem C_v116 : val_main_v116 (F := F) x1 x2 = val_main_v20 x1 x2 := by
  unfold val_main_v116 val_main_v20; rw [C_dinv3, C_v115]
theorem C_v117 : val_main_v117 (F := F) x1 x2 = val_main_v21 x1 x2 := by
  unfold val_main_v117 val_main_v21; rw [C_v116]
theorem C_v123 : val_main_v123 (F := F) x1 = val_main_v27 x1 := rfl
theorem C_v124 : val_main_v124 (F := F) x1 x2 = val_main_v28 x1 x2 := by
  unfold val_main_v124 val_main_v28; rw [C_dinv3, C_v123]

theorem C_norm3 : val_main_v125 (F := F) x1 x2 = val_main_v29 x1 x2 := by
  unfold val_main_v125 val_main_v29; rw [C_v117, C_v124]

end Copies2

section Agg

open Cert.ReferenceIdeal Cert.ReferenceIdeal.Gen

def agg (src dst : (⟨S800000, .i32⟩ : BufTy).Contents (Elt F)) (nrm : (⟨S800000, .f32⟩ : BufTy).Contents (Elt F))
    (hl : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 hl
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 nrm)))

variable (x0 : (⟨S50000x7, .f32⟩ : BufTy).Contents (Elt F)) (x1 : (⟨S2x800000, .i32⟩ : BufTy).Contents (Elt F))
  (x2 : (⟨S800000, .f32⟩ : BufTy).Contents (Elt F)) (x4 : (⟨S7x128, .f32⟩ : BufTy).Contents (Elt F))
  (x5 : (⟨S128, .f32⟩ : BufTy).Contents (Elt F)) (x6 : (⟨S128x128, .f32⟩ : BufTy).Contents (Elt F))
  (x7 : (⟨S128, .f32⟩ : BufTy).Contents (Elt F)) (x8 : (⟨S128x128, .f32⟩ : BufTy).Contents (Elt F))

theorem ref_agg1 : val_main_v42 (F := F) x0 x1 x2 x4
    = agg (val_main_v1 x1) (val_main_v3 x1) (val_main_v29 x1 x2) (val_main_v4 x0 x4) := by
  unfold val_main_v42 val_main_v39 val_main_v36 val_main_v38 val_main_v37 val_main_v40 val_main_v41 val_main_v35
    val_main_v34 val_main_v31 val_main_v33 val_main_v30 val_main_v32 val_main_cst_8 val_main_c_6 val_main_c_7 agg
  rfl

theorem ref_agg2 : val_main_v90 (F := F) x0 x1 x2 x4 x5 x6
    = agg (val_main_v1 x1) (val_main_v3 x1) (val_main_v29 x1 x2) (val_main_v52 x0 x1 x2 x4 x5 x6) := by
  rw [← C_norm2]
  unfold val_main_v90 val_main_v87 val_main_v84 val_main_v86 val_main_v85 val_main_v88 val_main_v89 val_main_v83
    val_main_v82 val_main_v79 val_main_v81 val_main_v78 val_main_v80 val_main_cst_19 val_main_c_17 val_main_c_18 agg
  rfl

theorem ref_agg3 : val_main_v138 (F := F) x0 x1 x2 x4 x5 x6 x7 x8
    = agg (val_main_v1 x1) (val_main_v3 x1) (val_main_v29 x1 x2) (val_main_v100 x0 x1 x2 x4 x5 x6 x7 x8) := by
  rw [← C_norm3]
  unfold val_main_v138 val_main_v135 val_main_v132 val_main_v134 val_main_v133 val_main_v136 val_main_v137 val_main_v131
    val_main_v130 val_main_v127 val_main_v129 val_main_v126 val_main_v128 val_main_cst_30 val_main_c_28 val_main_c_29 agg
  rfl

end Agg

section KernelSide

open Cert.KernelIdeal Cert.KernelIdeal.Gen

theorem gatherVec_eq : Cert.KernelIdeal.gather_S50000_S800000x1_S800000_n_0_n_n_0_1_1 = Cert.ReferenceIdeal.gather_S50000_S800000x1_S800000_n_0_n_n_0_1_1 := rfl
theorem gatherRows_eq : Cert.KernelIdeal.gather_S50000x128_S800000x1_S800000x128_1_0_n_n_0_1_1128 = Cert.ReferenceIdeal.gather_S50000x128_S800000x1_S800000x128_1_0_n_n_0_1_1128 := rfl
theorem scatterRows_eq : Cert.KernelIdeal.scatter_S50000x128_S800000x1_S800000x128_1_0_0_1 = Cert.ReferenceIdeal.scatter_S50000x128_S800000x1_S800000x128_1_0_0_1 := rfl

section Stretch0

variable (W : Valuation τ sig (Elt F))

theorem ops0_v1 : StableHlo.after hostOps0 W (Proc.devRef .tc main_v1) = val_main_v1 (W main_arg1) := by
  after_results; rfl
theorem ops0_v3 : StableHlo.after hostOps0 W (Proc.devRef .tc main_v3) = val_main_v3 (W main_arg1) := by
  after_results; rfl
theorem ops0_v10 : StableHlo.after hostOps0 W (Proc.devRef .tc main_v10) = val_main_v11 (W main_arg1) (W main_arg2) := by
  after_results; rfl
theorem ops0_v11 : StableHlo.after hostOps0 W (Proc.devRef .tc main_v11) = val_main_v12 (W main_arg1) (W main_arg2) := by
  after_results; rfl
theorem ops0_cst2 : StableHlo.after hostOps0 W (Proc.devRef .tc main_cst_2) = val_main_cst_2 := by
  after_results; rfl

end Stretch0

section Stretch12

variable (W : Valuation τ sig (Elt F))
variable (x1 : (⟨Cert.ReferenceIdeal.S2x800000, .i32⟩ : BufTy).Contents (Elt F)) (x2 : (⟨Cert.ReferenceIdeal.S800000, .f32⟩ : BufTy).Contents (Elt F))

theorem ops0_1_v12 (h10 : W main_v10 = val_main_v11 x1 x2) (h11 : W main_v11 = val_main_v12 x1 x2)
    (hc : W main_cst_2 = val_main_cst_2 (F := F)) :
    StableHlo.after hostOps0_1 W (Proc.devRef .tc main_v12) = val_main_v13 x1 x2 := by
  after_results
  rw [h10, h11, hc]; rfl

theorem ops0_2_v14 (h12 : W main_v12 = val_main_v13 x1 x2) :
    StableHlo.after hostOps0_2 W (Proc.devRef .tc main_v14)
      = shapeCast Cert.KernelIdeal.S50000x1 (val_main_v43 x1 x2) shapeCasts_S50000_S50000x1 := by
  after_results
  rw [h12]; rfl

theorem ops0_2_v30 (h1 : W main_v1 = val_main_v1 x1) (h3 : W main_v3 = val_main_v3 x1)
    (h12 : W main_v12 = val_main_v13 x1 x2) (h2 : W main_arg2 = x2) :
    StableHlo.after hostOps0_2 W (Proc.devRef .tc main_v30) = val_main_v29 x1 x2 := by
  after_results_simp
  rw [h1, h3, h12, h2, gatherVec_eq]; rfl

end Stretch12

section StretchAgg

variable (W : Valuation τ sig (Elt F))

theorem ops1_v44 : StableHlo.after hostOps1 W (Proc.devRef .tc main_v44)
    = agg (W main_v1) (W main_v3) (W main_v30) (W main_v31) := by
  after_results_simp
  rw [gatherRows_eq, scatterRows_eq]; rfl
theorem ops3_v60 : StableHlo.after hostOps3 W (Proc.devRef .tc main_v60)
    = agg (W main_v1) (W main_v3) (W main_v30) (W main_v47) := by
  after_results_simp
  rw [gatherRows_eq, scatterRows_eq]; rfl
theorem ops5_v76 : StableHlo.after hostOps5 W (Proc.devRef .tc main_v76)
    = agg (W main_v1) (W main_v3) (W main_v30) (W main_v63) := by
  after_results_simp
  rw [gatherRows_eq, scatterRows_eq]; rfl

theorem ops1_v45 : StableHlo.after hostOps1 W (Proc.devRef .tc main_v45)
    = shapeCast Cert.KernelIdeal.S1x128 (W main_arg5) shapeCasts_S128_S1x128 := by
  after_results_simp; rfl
theorem ops3_v61 : StableHlo.after hostOps3 W (Proc.devRef .tc main_v61)
    = shapeCast Cert.KernelIdeal.S1x128 (W main_arg7) shapeCasts_S128_S1x128 := by
  after_results_simp; rfl
theorem ops5_v77 : StableHlo.after hostOps5 W (Proc.devRef .tc main_v77)
    = shapeCast Cert.KernelIdeal.S1x128 (W main_arg9) shapeCasts_S128_S1x128 := by
  after_results_simp; rfl
theorem ops6_v79 : StableHlo.after hostOps6 W (Proc.devRef .tc main_v79)
    = shapeCast Cert.KernelIdeal.S50000x1 (W main_arg3) shapeCasts_S50000_S50000x1 := by
  after_results; rfl
theorem ops6_v80 : StableHlo.after hostOps6 W (Proc.devRef .tc main_v80)
    = shapeCast Cert.KernelIdeal.S1x5 (W main_arg11) shapeCasts_S5_S1x5 := by
  after_results; rfl

end StretchAgg

section Items

variable (m : (ℓ : Loc nD τ sig) → Buf (Elt F) ℓ) (outs : Outs (F := F)) (c : Dev nD)

theorem V3_keep (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans (V1_of m c r h0)
theorem V4_keep (r : Ref sig .tc) (h4 : r ∉ ([main_v31] : List (Ref sig .tc))) : V4 m outs c r = V3 m c r :=
  V4_of m outs c r h4
theorem V5_keep (r : Ref sig .tc) (h4 : r ∉ ([main_v31] : List (Ref sig .tc))) (h5 : r ∉ hostOps1_W) :
    V5 m outs c r = V3 m c r :=
  (V5_of m outs c r h5).trans (V4_keep m outs c r h4)
theorem V6_keep (r : Ref sig .tc) (h4 : r ∉ ([main_v31] : List (Ref sig .tc))) (h5 : r ∉ hostOps1_W)
    (h6 : r ∉ ([main_v46] : List (Ref sig .tc))) : V6 m outs c r = V3 m c r :=
  (V6_of m outs c r h6).trans (V5_keep m outs c r h4 h5)
theorem V7_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) : V7 m outs c r = V3 m c r :=
  (V7_of m outs c r h7).trans (V6_keep m outs c r h4 h5 h6)
theorem V8_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) (h8 : r ∉ hostOps3_W) :
    V8 m outs c r = V3 m c r :=
  (V8_of m outs c r h8).trans (V7_keep m outs c r h4 h5 h6 h7)
theorem V9_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) (h8 : r ∉ hostOps3_W)
    (h9 : r ∉ ([main_v62] : List (Ref sig .tc))) : V9 m outs c r = V3 m c r :=
  (V9_of m outs c r h9).trans (V8_keep m outs c r h4 h5 h6 h7 h8)
theorem V10_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) (h8 : r ∉ hostOps3_W)
    (h9 : r ∉ ([main_v62] : List (Ref sig .tc))) (h10 : r ∉ ([main_v63] : List (Ref sig .tc))) : V10 m outs c r = V3 m c r :=
  (V10_of m outs c r h10).trans (V9_keep m outs c r h4 h5 h6 h7 h8 h9)
theorem V11_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) (h8 : r ∉ hostOps3_W)
    (h9 : r ∉ ([main_v62] : List (Ref sig .tc))) (h10 : r ∉ ([main_v63] : List (Ref sig .tc))) (h11 : r ∉ hostOps5_W) :
    V11 m outs c r = V3 m c r :=
  (V11_of m outs c r h11).trans (V10_keep m outs c r h4 h5 h6 h7 h8 h9 h10)
theorem V12_keep (r : Ref sig .tc) (h4 : r ∉ ([main_v31] : List (Ref sig .tc))) (h5 : r ∉ hostOps1_W)
    (h6 : r ∉ ([main_v46] : List (Ref sig .tc))) (h7 : r ∉ ([main_v47] : List (Ref sig .tc))) (h8 : r ∉ hostOps3_W)
    (h9 : r ∉ ([main_v62] : List (Ref sig .tc))) (h10 : r ∉ ([main_v63] : List (Ref sig .tc))) (h11 : r ∉ hostOps5_W)
    (h12 : r ∉ ([main_v78] : List (Ref sig .tc))) : V12 m outs c r = V3 m c r :=
  (V12_of m outs c r h12).trans (V11_keep m outs c r h4 h5 h6 h7 h8 h9 h10 h11)
theorem V3_arg3 : V3 m c main_arg3 = m ((c : Thread nD τ).loc main_arg3) := V3_keep m c _ (by decide) (by decide) (by decide)
theorem V3_arg5 : V3 m c main_arg5 = m ((c : Thread nD τ).loc main_arg5) := V3_keep m c _ (by decide) (by decide) (by decide)
theorem V3_arg7 : V3 m c main_arg7 = m ((c : Thread nD τ).loc main_arg7) := V3_keep m c _ (by decide) (by decide) (by decide)
theorem V3_arg9 : V3 m c main_arg9 = m ((c : Thread nD τ).loc main_arg9) := V3_keep m c _ (by decide) (by decide) (by decide)
theorem V3_arg11 : V3 m c main_arg11 = m ((c : Thread nD τ).loc main_arg11) := V3_keep m c _ (by decide) (by decide) (by decide)

theorem S1_src : V3 m c main_v1 = val_main_v1 (m ((c : Thread nD τ).loc main_arg1)) :=
  (V3_of m c main_v1 (by decide)).trans <| (V2_of m c main_v1 (by decide)).trans (ops0_v1 (V0 m c))

theorem S1_dst : V3 m c main_v3 = val_main_v3 (m ((c : Thread nD τ).loc main_arg1)) :=
  (V3_of m c main_v3 (by decide)).trans <| (V2_of m c main_v3 (by decide)).trans (ops0_v3 (V0 m c))

theorem V2_dinv : V2 m c main_v12
    = val_main_v13 (m ((c : Thread nD τ).loc main_arg1)) (m ((c : Thread nD τ).loc main_arg2)) :=
  ops0_1_v12 (V1 m c) _ _ (ops0_v10 (V0 m c)) (ops0_v11 (V0 m c)) (ops0_cst2 (V0 m c))

theorem S3 : V3 m c main_v30
    = val_main_v29 (m ((c : Thread nD τ).loc main_arg1)) (m ((c : Thread nD τ).loc main_arg2)) :=
  ops0_2_v30 (V2 m c) _ _
    ((V2_of m c main_v1 (by decide)).trans (ops0_v1 (V0 m c)))
    ((V2_of m c main_v3 (by decide)).trans (ops0_v3 (V0 m c)))
    (V2_dinv m c)
    ((V2_of m c main_arg2 (by decide)).trans (V1_of m c main_arg2 (by decide)))

theorem S4 (i : Fin 50000) (u : Fin 1) : V3 m c main_v14 (ix2 i u)
    = val_main_v43 (m ((c : Thread nD τ).loc main_arg1)) (m ((c : Thread nD τ).loc main_arg2)) (ix1 i) :=
  (congrFun (ops0_2_v14 (V2 m c) _ _ (V2_dinv m c)) (ix2 i u)).trans (shapeCast_a_a1_apply _ _ i u)

theorem S4_V5 (i : Fin 50000) (u : Fin 1) : V5 m outs c main_v14 (ix2 i u)
    = val_main_v43 (m ((c : Thread nD τ).loc main_arg1)) (m ((c : Thread nD τ).loc main_arg2)) (ix1 i) :=
  (congrFun (V5_keep m outs c main_v14 (by decide) (by decide)) (ix2 i u)).trans (S4 m c i u)
theorem S4_V8 (i : Fin 50000) (u : Fin 1) : V8 m outs c main_v14 (ix2 i u)
    = val_main_v43 (m ((c : Thread nD τ).loc main_arg1)) (m ((c : Thread nD τ).loc main_arg2)) (ix1 i) :=
  (congrFun (V8_keep m outs c main_v14 (by decide) (by decide) (by decide) (by decide) (by decide)) (ix2 i u)).trans (S4 m c i u)
theorem S4_V11 (i : Fin 50000) (u : Fin 1) : V11 m outs c main_v14 (ix2 i u)
    = val_main_v43 (m ((c : Thread nD τ).loc main_arg1)) (m ((c : Thread nD τ).loc main_arg2)) (ix1 i) :=
  (congrFun (V11_keep m outs c main_v14 (by decide) (by decide) (by decide) (by decide) (by decide) (by decide) (by decide) (by decide)) (ix2 i u)).trans (S4 m c i u)

theorem R_b1 (u : Fin 1) (j : Fin 128) : V5 m outs c main_v45 (ix2 u j) = m ((c : Thread nD τ).loc main_arg5) (ix1 j) :=
  (congrFun ((ops1_v45 (V4 m outs c)).trans
    (congrArg (fun x => shapeCast Cert.KernelIdeal.S1x128 x shapeCasts_S128_S1x128)
      ((V4_keep m outs c main_arg5 (by decide)).trans (V3_arg5 m c)))) (ix2 u j)).trans
    (shapeCast_a_1a_apply _ _ u j)

theorem R_b2 (u : Fin 1) (j : Fin 128) : V8 m outs c main_v61 (ix2 u j) = m ((c : Thread nD τ).loc main_arg7) (ix1 j) :=
  (congrFun ((ops3_v61 (V7 m outs c)).trans
    (congrArg (fun x => shapeCast Cert.KernelIdeal.S1x128 x shapeCasts_S128_S1x128)
      ((V7_keep m outs c main_arg7 (by decide) (by decide) (by decide) (by decide)).trans (V3_arg7 m c)))) (ix2 u j)).trans
    (shapeCast_a_1a_apply _ _ u j)

theorem R_b3 (u : Fin 1) (j : Fin 128) : V11 m outs c main_v77 (ix2 u j) = m ((c : Thread nD τ).loc main_arg9) (ix1 j) :=
  (congrFun ((ops5_v77 (V10 m outs c)).trans
    (congrArg (fun x => shapeCast Cert.KernelIdeal.S1x128 x shapeCasts_S128_S1x128)
      ((V10_keep m outs c main_arg9 (by decide) (by decide) (by decide) (by decide) (by decide) (by decide) (by decide)).trans (V3_arg9 m c)))) (ix2 u j)).trans
    (shapeCast_a_1a_apply _ _ u j)

theorem R_batch (n : Fin 50000) (u : Fin 1) : V13 m outs c main_v79 (ix2 n u) = m ((c : Thread nD τ).loc main_arg3) (ix1 n) :=
  (congrFun ((ops6_v79 (V12 m outs c)).trans
    (congrArg (fun x => shapeCast Cert.KernelIdeal.S50000x1 x shapeCasts_S50000_S50000x1)
      ((V12_keep m outs c main_arg3 (by decide) (by decide) (by decide) (by decide) (by decide) (by decide) (by decide) (by decide) (by decide)).trans (V3_arg3 m c)))) (ix2 n u)).trans
    (shapeCast_a_a1_apply _ _ n u)

theorem R_bl (u : Fin 1) (k : Fin 5) : V13 m outs c main_v80 (ix2 u k) = m ((c : Thread nD τ).loc main_arg11) (ix1 k) :=
  (congrFun ((ops6_v80 (V12 m outs c)).trans
    (congrArg (fun x => shapeCast Cert.KernelIdeal.S1x5 x shapeCasts_S5_S1x5)
      ((V12_keep m outs c main_arg11 (by decide) (by decide) (by decide) (by decide) (by decide) (by decide) (by decide) (by decide) (by decide)).trans (V3_arg11 m c)))) (ix2 u k)).trans
    (shapeCast_a_1a_apply _ _ u k)

theorem A1_agg : V5 m outs c main_v44
    = agg (val_main_v1 (m ((c : Thread nD τ).loc main_arg1))) (val_main_v3 (m ((c : Thread nD τ).loc main_arg1)))
        (val_main_v29 (m ((c : Thread nD τ).loc main_arg1)) (m ((c : Thread nD τ).loc main_arg2))) (outs 4 main_v31 c) := by
  show StableHlo.after hostOps1 (V4 m outs c) (Proc.devRef .tc main_v44) = _
  rw [ops1_v44, V4_keep m outs c main_v1 (by decide), V4_keep m outs c main_v3 (by decide),
    V4_keep m outs c main_v30 (by decide), S1_src, S1_dst, S3]
  exact congrArg _ (Function.update_self ..)
theorem A2_agg : V8 m outs c main_v60
    = agg (val_main_v1 (m ((c : Thread nD τ).loc main_arg1))) (val_main_v3 (m ((c : Thread nD τ).loc main_arg1)))
        (val_main_v29 (m ((c : Thread nD τ).loc main_arg1)) (m ((c : Thread nD τ).loc main_arg2))) (outs 7 main_v47 c) := by
  show StableHlo.after hostOps3 (V7 m outs c) (Proc.devRef .tc main_v60) = _
  rw [ops3_v60, V7_keep m outs c main_v1 (by decide) (by decide) (by decide) (by decide),
    V7_keep m outs c main_v3 (by decide) (by decide) (by decide) (by decide),
    V7_keep m outs c main_v30 (by decide) (by decide) (by decide) (by decide), S1_src, S1_dst, S3]
  exact congrArg _ (Function.update_self ..)
theorem A3_agg : V11 m outs c main_v76
    = agg (val_main_v1 (m ((c : Thread nD τ).loc main_arg1))) (val_main_v3 (m ((c : Thread nD τ).loc main_arg1)))
        (val_main_v29 (m ((c : Thread nD τ).loc main_arg1)) (m ((c : Thread nD τ).loc main_arg2))) (outs 10 main_v63 c) := by
  show StableHlo.after hostOps5 (V10 m outs c) (Proc.devRef .tc main_v76) = _
  rw [ops5_v76, V10_keep m outs c main_v1 (by decide) (by decide) (by decide) (by decide) (by decide) (by decide) (by decide),
    V10_keep m outs c main_v3 (by decide) (by decide) (by decide) (by decide) (by decide) (by decide) (by decide),
    V10_keep m outs c main_v30 (by decide) (by decide) (by decide) (by decide) (by decide) (by decide) (by decide), S1_src, S1_dst, S3]
  exact congrArg _ (Function.update_self ..)

theorem A1
    (h : outs 4 main_v31 c = val_main_v4 (m ((c : Thread nD τ).loc main_arg0)) (m ((c : Thread nD τ).loc main_arg4))) :
    V5 m outs c main_v44 = val_main_v42 (m ((c : Thread nD τ).loc main_arg0)) (m ((c : Thread nD τ).loc main_arg1))
      (m ((c : Thread nD τ).loc main_arg2)) (m ((c : Thread nD τ).loc main_arg4)) := by
  rw [A1_agg, ref_agg1, h]

theorem A2
    (h : outs 7 main_v47 c = val_main_v52 (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6))) :
    V8 m outs c main_v60 = val_main_v90 (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) := by
  rw [A2_agg, ref_agg2, h]

theorem A3
    (h : outs 10 main_v63 c = val_main_v100 (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) (m ((c : Thread nD τ).loc main_arg8))) :
    V11 m outs c main_v76 = val_main_v138 (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) (m ((c : Thread nD τ).loc main_arg8)) := by
  rw [A3_agg, ref_agg3, h]

end Items

end KernelSide

end Cert.Bridge

end
-- ==== Proof.Bridge.Comb.lean ====
import proofs.«428546_j9294309228814_1_alg».proof.Proof.KI.Val1
import proofs.«428546_j9294309228814_1_alg».proof.Proof.KI.Val3
import proofs.«428546_j9294309228814_1_alg».proof.Proof.KI.Val5
import proofs.«428546_j9294309228814_1_alg».proof.Proof.Gen.ReferenceIdeal.Read
import Idealize.ShloMosaic.Lib.ValueIdx
import Idealize.ShloMosaic.PureOps.Ideal.Laws

noncomputable section

namespace Cert.Bridge

open Cert.ReferenceIdeal Cert.ReferenceIdeal.Read
open Idealize.ShloMosaic Idealize.ShloMosaic.TcCoe
open Idealize.ShloMosaic.ValueIdx

theorem comb1_ref (x0 : (⟨S50000x7, .f32⟩ : BufTy).Contents (Elt Ideal)) (x1 : (⟨S2x800000, .i32⟩ : BufTy).Contents (Elt Ideal))
    (x2 : (⟨S800000, .f32⟩ : BufTy).Contents (Elt Ideal)) (x4 : (⟨S7x128, .f32⟩ : BufTy).Contents (Elt Ideal)) (x5 : (⟨S128, .f32⟩ : BufTy).Contents (Elt Ideal))
    (col : FVec Ideal S50000x1 .f32) (row : FVec Ideal S1x128 .f32)
    (hcol : ∀ i : Fin 50000, col (ValueIdx.ix2 i 0) = val_main_v43 x1 x2 (ValueIdx.ix1 i))
    (hrow : ∀ j : Fin 128, row (ValueIdx.ix2 0 j) = x5 (ValueIdx.ix1 j)) :
    Cert.KernelIdeal.Hand.G1 (val_main_v4 x0 x4) (val_main_v42 x0 x1 x2 x4) col row = val_main_v51 x0 x1 x2 x4 x5 := by
  funext idx
  obtain ⟨i, j, rfl⟩ : ∃ (i : Fin 50000) (j : Fin 128), idx = ix2 i j := ⟨idx 0, idx 1, eq_ix2 idx⟩
  have e1 : idx_main_v44 (idx_main_v45 (ix2 i j)) = ix1 i := funext fun a => Fin.ext (by match a with | ⟨0, _⟩ => rfl)
  have e2 : idx_main_v48 (idx_main_v49 (ix2 i j)) = ix1 j := funext fun a => Fin.ext (by match a with | ⟨0, _⟩ => rfl)
  rw [Cert.KernelIdeal.Hand.G1_apply, val_main_v51_apply, val_main_v50_apply, val_main_v47_apply, val_main_v46_apply,
    val_main_v45_apply, val_main_v44_apply, val_main_v49_apply, val_main_v48_apply, val_main_call1_v0_apply,
    val_main_call1_cst_apply, e1, e2, hcol, hrow]
  simp only [Ideal.maximumf_def, Ideal.addf_def, Ideal.mulf_def, Ideal.ofBits_def, Ideal.ofBits_zero_f32]

theorem comb3_ref (x0 : (⟨S50000x7, .f32⟩ : BufTy).Contents (Elt Ideal)) (x1 : (⟨S2x800000, .i32⟩ : BufTy).Contents (Elt Ideal))
    (x2 : (⟨S800000, .f32⟩ : BufTy).Contents (Elt Ideal)) (x4 : (⟨S7x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (col : FVec Ideal S50000x1 .f32) (row : FVec Ideal S1x128 .f32)
    (hcol : ∀ i : Fin 50000, col (ValueIdx.ix2 i 0) = val_main_v91 x1 x2 (ValueIdx.ix1 i))
    (hrow : ∀ j : Fin 128, row (ValueIdx.ix2 0 j) = x7 (ValueIdx.ix1 j)) :
    Cert.KernelIdeal.Hand.G1 (val_main_v52 x0 x1 x2 x4 x5 x6) (val_main_v90 x0 x1 x2 x4 x5 x6) col row
      = val_main_v99 x0 x1 x2 x4 x5 x6 x7 := by
  funext idx
  obtain ⟨i, j, rfl⟩ : ∃ (i : Fin 50000) (j : Fin 128), idx = ix2 i j := ⟨idx 0, idx 1, eq_ix2 idx⟩
  have e1 : idx_main_v92 (idx_main_v93 (ix2 i j)) = ix1 i := funext fun a => Fin.ext (by match a with | ⟨0, _⟩ => rfl)
  have e2 : idx_main_v96 (idx_main_v97 (ix2 i j)) = ix1 j := funext fun a => Fin.ext (by match a with | ⟨0, _⟩ => rfl)
  rw [Cert.KernelIdeal.Hand.G1_apply, val_main_v99_apply, val_main_v98_apply, val_main_v95_apply, val_main_v94_apply,
    val_main_v93_apply, val_main_v92_apply, val_main_v97_apply, val_main_v96_apply, val_main_call3_v0_apply,
    val_main_call3_cst_apply, e1, e2, hcol, hrow]
  simp only [Ideal.maximumf_def, Ideal.addf_def, Ideal.mulf_def, Ideal.ofBits_def, Ideal.ofBits_zero_f32]

theorem comb5_ref (x0 : (⟨S50000x7, .f32⟩ : BufTy).Contents (Elt Ideal)) (x1 : (⟨S2x800000, .i32⟩ : BufTy).Contents (Elt Ideal))
    (x2 : (⟨S800000, .f32⟩ : BufTy).Contents (Elt Ideal)) (x4 : (⟨S7x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (col : FVec Ideal S50000x1 .f32) (row : FVec Ideal S1x128 .f32)
    (hcol : ∀ i : Fin 50000, col (ValueIdx.ix2 i 0) = val_main_v139 x1 x2 (ValueIdx.ix1 i))
    (hrow : ∀ j : Fin 128, row (ValueIdx.ix2 0 j) = x9 (ValueIdx.ix1 j)) :
    Cert.KernelIdeal.Hand.G5 (val_main_v100 x0 x1 x2 x4 x5 x6 x7 x8) (val_main_v138 x0 x1 x2 x4 x5 x6 x7 x8) col row
      = val_main_v146 x0 x1 x2 x4 x5 x6 x7 x8 x9 := by
  funext idx
  obtain ⟨i, j, rfl⟩ : ∃ (i : Fin 50000) (j : Fin 128), idx = ix2 i j := ⟨idx 0, idx 1, eq_ix2 idx⟩
  have e1 : idx_main_v140 (idx_main_v141 (ix2 i j)) = ix1 i := funext fun a => Fin.ext (by match a with | ⟨0, _⟩ => rfl)
  have e2 : idx_main_v144 (idx_main_v145 (ix2 i j)) = ix1 j := funext fun a => Fin.ext (by match a with | ⟨0, _⟩ => rfl)
  rw [Cert.KernelIdeal.Hand.G5_apply, val_main_v146_apply, val_main_v143_apply, val_main_v142_apply,
    val_main_v141_apply, val_main_v140_apply, val_main_v145_apply, val_main_v144_apply, e1, e2, hcol, hrow]
  simp only [Ideal.addf_def, Ideal.mulf_def]

end Cert.Bridge

end
-- ==== Proof.LibRowOps.lean ====
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

theorem rows_window_0 (e : Fin E) (j : Fin W) : (rowsScatter N E W wf).window (ix2 e j) 0 = 0 := by
  unfold ScatterDims.window
  rw [dif_neg (by simp [ScatterDims.sKept, Shape.kept, List.mem_filter])]

theorem rows_window_1 (e : Fin E) (j : Fin W) : (rowsScatter N E W wf).window (ix2 e j) 1 = j.val := by
  unfold ScatterDims.window
  rw [dif_pos (by simp [ScatterDims.sKept, Shape.kept, List.mem_filter])]
  rfl

theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E : Nat} (wf : ScatterDims.WF ⟨1, ![N]⟩ ⟨2, ![E, 1]⟩ ⟨1, ![E]⟩ [] [0] [0] 1)

theorem vec_start (idx : IVec ⟨2, ![E, 1]⟩ 32) (e : Fin E) :
    (vecScatter N E wf).start (ix1 e) idx 0 = (idx (ix2 e 0)).toInt := by
  unfold ScatterDims.start
  rw [dif_pos (show (0 : Fin (⟨1, ![N]⟩ : Shape).rank) ∈ (vecScatter N E wf).scatterDimsToOperandDims from List.mem_singleton.mpr rfl)]
  congr 2
  funext b; refine Fin.ext ?_
  match b with
  | ⟨0, _⟩ => rfl
  | ⟨1, _⟩ => rfl

theorem vec_window (e : Fin E) : (vecScatter N E wf).window (ix1 e) 0 = 0 := by
  unfold ScatterDims.window
  rw [dif_neg (by simp [ScatterDims.sKept, Shape.kept, List.mem_filter])]

theorem vec_lands (idx : IVec ⟨2, ![E, 1]⟩ 32) (e : Fin E) (i : Fin N) :
    (vecScatter N E wf).resultIdx? (ix1 e) idx = some (ix1 i) ↔ (idx (ix2 e 0)).toInt = (i.val : ℤ) := by
  rw [resultIdx?_eq_some_iff]
  constructor
  · intro h
    have h0 := h 0
    rw [vec_start, vec_window] at h0
    change (idx (ix2 e 0)).toInt + ((0 : ℕ) : ℤ) = (i.val : ℤ) at h0
    simpa using h0
  · intro h0 a
    obtain rfl : a = 0 := Subsingleton.elim _ _
    rw [vec_start, vec_window]
    show (idx (ix2 e 0)).toInt + ((0 : ℕ) : ℤ) = (i.val : ℤ)
    simpa using h0

theorem vec_sum (idx : IVec ⟨2, ![E, 1]⟩ 32) (upd : (⟨1, ![E]⟩ : Shape).Idx → EReal) (i : Fin N) :
    ∑ u ∈ Finset.univ.filter (fun u => (vecScatter N E wf).resultIdx? u idx = some (ix1 i)), upd u
      = ∑ e : Fin E, (if (idx (ix2 e 0)).toInt = (i.val : ℤ) then upd (ix1 e) else 0) := by
  rw [Finset.sum_filter, ← Equiv.sum_comp (idxEquiv1 (n := E)).symm]
  refine Finset.sum_congr rfl fun e _ => ?_
  show (if (vecScatter N E wf).resultIdx? (ix1 e) idx = some (ix1 i) then upd (ix1 e) else 0) = _
  simp only [vec_lands]

theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [← vec_sum wf' idx upd i]

end

variable {N E W : Nat} (wf : GatherDims.WF ⟨2, ![N, W]⟩ ⟨2, ![E, 1]⟩ ⟨2, ![E, W]⟩ [1] [0] [] [0] [] 1 ![1, W])

end Idealize.ShloMosaic.RowOps

end
-- ==== Proof.Bridge.Pool.lean ====
import proofs.«428546_j9294309228814_1_alg».proof.Proof.Gen.ReferenceIdeal.Read
import proofs.«428546_j9294309228814_1_alg».proof.Proof.LibRowOps
import Idealize.ShloMosaic.Lib.ValueIdx
import Idealize.ShloMosaic.PureOps.Ideal.Laws

noncomputable section

namespace Cert.Bridge

open Cert.ReferenceIdeal Cert.ReferenceIdeal.Read
open Idealize.ShloMosaic Idealize.ShloMosaic.TcCoe
open scoped BigOperators

theorem pool_one_f32 : Ideal.ofBits .f32 0x3F800000#32 = 1 := by
  simp [Ideal.ofBits, Ideal.ieee, -EReal.coe_mul]; norm_num

theorem pool_idx148 (n : Fin 50000) : idx_main_v148 (ValueIdx.ix2 n (0 : Fin 1)) = ValueIdx.ix1 n := by
  funext a; match a with | ⟨0, _⟩ => rfl

theorem pool_idx152 (n : Fin 50000) : idx_main_v152 (ValueIdx.ix2 n (0 : Fin 1)) = ValueIdx.ix1 n := by
  funext a; match a with | ⟨0, _⟩ => rfl

theorem pool_idx157 (g : Fin 64) (d : Fin 128) :
    idx_main_v156 (idx_main_v157 (ValueIdx.ix2 g d)) = ValueIdx.ix1 g := by
  funext a; match a with | ⟨0, _⟩ => rfl

theorem pool_idx161 (g : Fin 64) (k : Fin 5) :
    idx_main_v160 (idx_main_v161 (ValueIdx.ix2 g k)) = ValueIdx.ix1 k := by
  funext a; match a with | ⟨0, _⟩ => rfl

theorem pool_lidx (g : Fin 64) (k : Fin 5) (d : Fin 128) :
    lidx_main_v159 (ValueIdx.ix2 g k) d = ValueIdx.ix2 g d := by
  funext a; match a with | ⟨0, _⟩ => rfl | ⟨1, _⟩ => rfl

theorem pool_ridx (g : Fin 64) (k : Fin 5) (d : Fin 128) :
    ridx_main_v159 (ValueIdx.ix2 g k) d = ValueIdx.ix2 d k := by
  funext a; match a with | ⟨0, _⟩ => rfl | ⟨1, _⟩ => rfl

theorem pool_counts (x3 : (⟨S50000, .i32⟩ : BufTy).Contents (Elt Ideal)) (g : Fin 64) :
    val_main_v153 (F := Ideal) x3 (ValueIdx.ix1 g)
      = ∑ n : Fin 50000, (if (x3 (ValueIdx.ix1 n)).toInt = (g.val : ℤ) then (1 : EReal) else 0) := by
  unfold val_main_v153
  rw [RowOps.hostScatterAdd_eq]
  refine (RowOps.scatterAdd_vec_apply (N := 64) (E := 50000) scatter_S64_S50000x1_S50000_n_0_0_1 rfl rfl rfl rfl
    _ _ _ g).trans ?_
  rw [val_main_v151_apply, val_main_cst_33_apply, Ideal.ofBits_def, Ideal.ofBits_zero_f32, zero_add]
  refine Finset.sum_congr rfl fun n _ => ?_
  rw [val_main_v152_apply, pool_idx152, val_main_v150_apply, val_main_cst_32_apply, Ideal.ofBits_def, pool_one_f32]

theorem pool_sums (x0 : (⟨S50000x7, .f32⟩ : BufTy).Contents (Elt Ideal)) (x1 : (⟨S2x800000, .i32⟩ : BufTy).Contents (Elt Ideal)) (x2 : (⟨S800000, .f32⟩ : BufTy).Contents (Elt Ideal)) (x3 : (⟨S50000, .i32⟩ : BufTy).Contents (Elt Ideal)) (x4 : (⟨S7x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (g : Fin 64) (d : Fin 128) :
    val_main_v149 (F := Ideal) x0 x1 x2 x3 x4 x5 x6 x7 x8 x9 (ValueIdx.ix2 g d)
      = ∑ n : Fin 50000, (if (x3 (ValueIdx.ix1 n)).toInt = (g.val : ℤ)
          then val_main_v146 (F := Ideal) x0 x1 x2 x4 x5 x6 x7 x8 x9 (ValueIdx.ix2 n d) else 0) := by
  unfold val_main_v149
  rw [RowOps.hostScatterAdd_eq]
  refine (RowOps.scatterAdd_rows_apply (N := 64) (E := 50000) (W := 128) scatter_S64x128_S50000x1_S50000x128_1_0_0_1
    rfl rfl rfl rfl _ _ _ g d).trans ?_
  rw [val_main_v147_apply, val_main_cst_31_apply, Ideal.ofBits_def, Ideal.ofBits_zero_f32, zero_add]
  refine Finset.sum_congr rfl fun n _ => ?_
  rw [val_main_v148_apply, pool_idx148]

theorem pool_den (x3 : (⟨S50000, .i32⟩ : BufTy).Contents (Elt Ideal)) (g : Fin 64) (d : Fin 128) :
    val_main_v157 (F := Ideal) x3 (ValueIdx.ix2 g d)
      = max (∑ n : Fin 50000, (if (x3 (ValueIdx.ix1 n)).toInt = (g.val : ℤ) then (1 : EReal) else 0)) 1 := by
  rw [val_main_v157_apply, val_main_v156_apply, pool_idx157, val_main_v155_apply, Ideal.maximumf_def, pool_counts,
    val_main_v154_apply, val_main_cst_34_apply, Ideal.ofBits_def, pool_one_f32]

theorem pool_term (x0 : (⟨S50000x7, .f32⟩ : BufTy).Contents (Elt Ideal)) (x1 : (⟨S2x800000, .i32⟩ : BufTy).Contents (Elt Ideal)) (x2 : (⟨S800000, .f32⟩ : BufTy).Contents (Elt Ideal)) (x3 : (⟨S50000, .i32⟩ : BufTy).Contents (Elt Ideal)) (x4 : (⟨S7x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x5, .f32⟩ : BufTy).Contents (Elt Ideal)) (g : Fin 64) (k : Fin 5) (d : Fin 128) :
    val_main_v158 (F := Ideal) x0 x1 x2 x3 x4 x5 x6 x7 x8 x9 (lidx_main_v159 (ValueIdx.ix2 g k) d) * x10 (ridx_main_v159 (ValueIdx.ix2 g k) d)
      = Ideal.div (∑ n : Fin 50000, (if (x3 (ValueIdx.ix1 n)).toInt = (g.val : ℤ) then val_main_v146 (F := Ideal) x0 x1 x2 x4 x5 x6 x7 x8 x9 (ValueIdx.ix2 n d) else 0))
                  (max (∑ n : Fin 50000, (if (x3 (ValueIdx.ix1 n)).toInt = (g.val : ℤ) then (1 : EReal) else 0)) 1)
          * x10 (ValueIdx.ix2 d k) := by
  rw [pool_lidx, pool_ridx, val_main_v158_apply, Ideal.hostDivf_def, pool_sums, pool_den]

theorem pool_ref (x0 : (⟨S50000x7, .f32⟩ : BufTy).Contents (Elt Ideal)) (x1 : (⟨S2x800000, .i32⟩ : BufTy).Contents (Elt Ideal)) (x2 : (⟨S800000, .f32⟩ : BufTy).Contents (Elt Ideal)) (x3 : (⟨S50000, .i32⟩ : BufTy).Contents (Elt Ideal)) (x4 : (⟨S7x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x5, .f32⟩ : BufTy).Contents (Elt Ideal)) (x11 : (⟨S5, .f32⟩ : BufTy).Contents (Elt Ideal)) (g : Fin 64) (k : Fin 5) :
    val_main_v162 (F := Ideal) x0 x1 x2 x3 x4 x5 x6 x7 x8 x9 x10 x11 (ValueIdx.ix2 g k)
      = (∑ d : Fin 128, Ideal.div (∑ n : Fin 50000, (if (x3 (ValueIdx.ix1 n)).toInt = (g.val : ℤ) then val_main_v146 (F := Ideal) x0 x1 x2 x4 x5 x6 x7 x8 x9 (ValueIdx.ix2 n d) else 0))
                                  (max (∑ n : Fin 50000, (if (x3 (ValueIdx.ix1 n)).toInt = (g.val : ℤ) then (1 : EReal) else 0)) 1)
            * x10 (ValueIdx.ix2 d k))
        + x11 (ValueIdx.ix1 k) := by
  rw [val_main_v162_apply, Ideal.addf_def, val_main_v161_apply, val_main_v160_apply, pool_idx161, val_main_v159_apply,
    Finset.sum_congr rfl (fun d _ => pool_term x0 x1 x2 x3 x4 x5 x6 x7 x8 x9 x10 g k d)]

end Cert.Bridge

end
-- ==== Proof.Bridge.Final.lean ====
import proofs.«428546_j9294309228814_1_alg».proof.Proof.KI.Entry
import proofs.«428546_j9294309228814_1_alg».proof.Proof.KI.Val0
import proofs.«428546_j9294309228814_1_alg».proof.Proof.KI.Val1
import proofs.«428546_j9294309228814_1_alg».proof.Proof.KI.Val2
import proofs.«428546_j9294309228814_1_alg».proof.Proof.KI.Val3
import proofs.«428546_j9294309228814_1_alg».proof.Proof.KI.Val4
import proofs.«428546_j9294309228814_1_alg».proof.Proof.KI.Val5
import proofs.«428546_j9294309228814_1_alg».proof.Proof.KI.Val6
import proofs.«428546_j9294309228814_1_alg».proof.Proof.Bridge.Lin
import proofs.«428546_j9294309228814_1_alg».proof.Proof.Bridge.Host
import proofs.«428546_j9294309228814_1_alg».proof.Proof.Bridge.Comb
import proofs.«428546_j9294309228814_1_alg».proof.Proof.Bridge.Pool

noncomputable section

namespace Cert.Bridge

open Idealize.ShloMosaic Idealize.ShloMosaic.TcCoe Idealize.SL.Sem
open Idealize.ShloMosaic.ValueIdx
open Cert.KernelIdeal Cert.KernelIdeal.Gen Cert.KernelIdeal.Hand
open Cert.ReferenceIdeal.Read

section Copies
variable {F : FTy → Type} [FloatOps F]
variable (y1 : (⟨Cert.ReferenceIdeal.S2x800000, .i32⟩ : BufTy).Contents (Elt F)) (y2 : (⟨Cert.ReferenceIdeal.S800000, .f32⟩ : BufTy).Contents (Elt F))

theorem sq_dinv2 : val_main_v91 (F := F) y1 y2 = val_main_v43 y1 y2 := by
  unfold val_main_v91 val_main_v43; rw [C_dinv2]
theorem sq_dinv3 : val_main_v139 (F := F) y1 y2 = val_main_v43 y1 y2 := by
  unfold val_main_v139 val_main_v43; rw [C_dinv3]

end Copies

section Regions

variable (m : (ℓ : Loc nD τ sig) → Buf (Elt Ideal) ℓ) (outs : Outs (F := Ideal)) (h : Named m outs) (c : Dev nD)

abbrev a0 := m ((c : Thread nD τ).loc main_arg0)
abbrev a1 := m ((c : Thread nD τ).loc main_arg1)
abbrev a2 := m ((c : Thread nD τ).loc main_arg2)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)

include h

theorem out0_ref : outs 4 main_v31 c = val_main_v4 (a0 m c) (a4 m c) :=
  (h.h0 c).trans <| (final0 (E0 m) c).trans <| (congrArg₂ prod0 (E0_arg0 m c) (E0_arg4 m c)).trans (lin0_ref _ _)

theorem out1_ref : outs 6 main_v46 c = val_main_v51 (a0 m c) (a1 m c) (a2 m c) (a4 m c) (a5 m c) :=
  (h.h1 c).trans <| (final1_4 (E1 m outs) c).trans <|
    (congrArg₂ (fun a b => G1 a b _ _) ((E1_v31 m outs c).trans (out0_ref m outs h c)) (A1 m outs c (out0_ref m outs h c))).trans
      (comb1_ref _ _ _ _ _ _ _ (fun i => S4_V5 m outs c i 0) (fun j => R_b1 m outs c 0 j))

theorem out2_ref : outs 7 main_v47 c = val_main_v52 (a0 m c) (a1 m c) (a2 m c) (a4 m c) (a5 m c) (a6 m c) :=
  (h.h2 c).trans <| (final2 (E2 m outs) c).trans <|
    (congrArg₂ prod2 ((E2_v46 m outs c).trans (out1_ref m outs h c)) (E2_arg6 m outs c)).trans (lin2_ref _ _)

theorem out3_ref : outs 9 main_v62 c = val_main_v99 (a0 m c) (a1 m c) (a2 m c) (a4 m c) (a5 m c) (a6 m c) (a7 m c) :=
  (h.h3 c).trans <| (final3_4 (E3 m outs) c).trans <|
    (congrArg₂ (fun a b => G1 a b _ _) ((E3_v47 m outs c).trans (out2_ref m outs h c)) (A2 m outs c (out2_ref m outs h c))).trans
      (comb3_ref _ _ _ _ _ _ _ _ _ (fun i => (S4_V8 m outs c i 0).trans (congrFun (sq_dinv2 _ _).symm (ix1 i))) (fun j => R_b2 m outs c 0 j))

theorem out4_ref : outs 10 main_v63 c = val_main_v100 (a0 m c) (a1 m c) (a2 m c) (a4 m c) (a5 m c) (a6 m c) (a7 m c) (a8 m c) :=
  (h.h4 c).trans <| (final4 (E4 m outs) c).trans <|
    (congrArg₂ prod2 ((E4_v62 m outs c).trans (out3_ref m outs h c)) (E4_arg8 m outs c)).trans (lin2_ref _ _)

theorem out5_ref : outs 12 main_v78 c = val_main_v146 (a0 m c) (a1 m c) (a2 m c) (a4 m c) (a5 m c) (a6 m c) (a7 m c) (a8 m c) (a9 m c) :=
  (h.h5 c).trans <| (final5_4 (E5 m outs) c).trans <|
    (congrArg₂ (fun a b => G5 a b _ _) ((E5_v63 m outs c).trans (out4_ref m outs h c)) (A3 m outs c (out4_ref m outs h c))).trans
      (comb5_ref _ _ _ _ _ _ _ _ _ _ _ (fun i => (S4_V11 m outs c i 0).trans (congrFun (sq_dinv3 _ _).symm (ix1 i))) (fun j => R_b3 m outs c 0 j))

theorem kernel_value :
    V14 m outs c main_v81 = val_main_v162 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (V14_v81 m outs c).trans <| (h.h6 c).trans ?_
  funext idx
  obtain ⟨g, k, rfl⟩ : ∃ (g : Fin 64) (k : Fin 5), idx = ix2 g k := ⟨idx 0, idx 1, eq_ix2 idx⟩
  have feat : ∀ (n : Fin 50000) (d : Fin 128), E6 m outs c (Pipeline.arrRef spec6 0) (ix2 n d) = _ :=
    fun n d => congrFun ((E6_v78 m outs c).trans (out5_ref m outs h c)) (ix2 n d)
  have ids : ∀ n : Fin 50000, E6 m outs c (Pipeline.arrRef spec6 1) (ix2 n (0 : Fin 1)) = _ := fun n => R_batch m outs c n 0
  have wts : ∀ (d : Fin 128) (k : Fin 5), E6 m outs c (Pipeline.arrRef spec6 2) (ix2 d k) = _ := fun d k => congrFun (E6_arg10 m outs c) (ix2 d k)
  have bias : ∀ k : Fin 5, E6 m outs c (Pipeline.arrRef spec6 3) (ix2 (0 : Fin 1) k) = _ := fun k => R_bl m outs c 0 k
  rw [arrAt6_out (E6 m outs) c g k, pool_ref _ _ _ _ _ _ _ _ _ _ _ _ g k]
  simp only [feat, ids, wts, bias]

end Regions

end Cert.Bridge

end
-- ==== Proof.lean ====
import proofs.«428546_j9294309228814_1_alg».proof.Defs
import proofs.«428546_j9294309228814_1_alg».proof.Proof.Gen.Kernel
import proofs.«428546_j9294309228814_1_alg».proof.Proof.Gen.KernelIdeal
import proofs.«428546_j9294309228814_1_alg».proof.Proof.Gen.ReferenceIdeal
import proofs.«428546_j9294309228814_1_alg».proof.Proof.Gen.Pre_finite_inputs
import proofs.«428546_j9294309228814_1_alg».proof.Proof.Gen.ReferenceIdeal.Run
import proofs.«428546_j9294309228814_1_alg».proof.Proof.Gen.ReferenceIdeal.Read
import proofs.«428546_j9294309228814_1_alg».proof.Proof.KB.Frame
import proofs.«428546_j9294309228814_1_alg».proof.Proof.KI.Run
import proofs.«428546_j9294309228814_1_alg».proof.Proof.KI.Outs
import proofs.«428546_j9294309228814_1_alg».proof.Proof.Bridge.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ =>
  (θ_run Cert.KernelIdeal.defs _ _).mono (fun _ h c => (h c).2)
    (Cert.KernelIdeal.Hand.run_named m (Cert.KernelIdeal.Hand.outsOf m) ρ (Cert.KernelIdeal.Hand.named_outsOf m))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.V14 m (Cert.KernelIdeal.Hand.outsOf m) c Cert.KernelIdeal.main_v81,
    Cert.KernelIdeal.Hand.run_named m (Cert.KernelIdeal.Hand.outsOf m) ρ (Cert.KernelIdeal.Hand.named_outsOf m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v162_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Bridge.kernel_value m (Cert.KernelIdeal.Hand.outsOf m) (Cert.KernelIdeal.Hand.named_outsOf m) c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
